-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x36 : Shape := ⟨2, ![20000, 36]⟩
abbrev S20000x5 : Shape := ⟨2, ![20000, 5]⟩
abbrev S20000x2048 : Shape := ⟨2, ![20000, 2048]⟩
abbrev S20000 : Shape := ⟨1, ![20000]⟩
abbrev S36x200 : Shape := ⟨2, ![36, 200]⟩
abbrev S4 : Shape := ⟨1, ![4]⟩
abbrev S128x4 : Shape := ⟨2, ![128, 4]⟩
abbrev S128 : Shape := ⟨1, ![128]⟩
abbrev S1024x2376 : Shape := ⟨2, ![1024, 2376]⟩
abbrev S1024 : Shape := ⟨1, ![1024]⟩
abbrev S37x1024 : Shape := ⟨2, ![37, 1024]⟩
abbrev S37 : Shape := ⟨1, ![37]⟩
abbrev S_ : Shape := ⟨0, ![]⟩

class Facts : Prop where
  bcast_S_S20000x36 : S_.BroadcastsInDim S20000x36 (![] : Fin 0 → Fin S20000x36.rank)
  reducesTo_S20000x36_S_d0_1 : S20000x36.ReducesTo [0, 1] S_
  h_S_ : 0 < S_.numel
  bcast_S_S20000x5 : S_.BroadcastsInDim S20000x5 (![] : Fin 0 → Fin S20000x5.rank)
  reducesTo_S20000x5_S_d0_1 : S20000x5.ReducesTo [0, 1] S_
  bcast_S_S20000x2048 : S_.BroadcastsInDim S20000x2048 (![] : Fin 0 → Fin S20000x2048.rank)
  reducesTo_S20000x2048_S_d0_1 : S20000x2048.ReducesTo [0, 1] S_
  bcast_S_S36x200 : S_.BroadcastsInDim S36x200 (![] : Fin 0 → Fin S36x200.rank)
  reducesTo_S36x200_S_d0_1 : S36x200.ReducesTo [0, 1] S_
  bcast_S_S4 : S_.BroadcastsInDim S4 (![] : Fin 0 → Fin S4.rank)
  reducesTo_S4_S_d0 : S4.ReducesTo [0] S_
  bcast_S_S128x4 : S_.BroadcastsInDim S128x4 (![] : Fin 0 → Fin S128x4.rank)
  reducesTo_S128x4_S_d0_1 : S128x4.ReducesTo [0, 1] S_
  bcast_S_S128 : S_.BroadcastsInDim S128 (![] : Fin 0 → Fin S128.rank)
  reducesTo_S128_S_d0 : S128.ReducesTo [0] S_
  bcast_S_S1024x2376 : S_.BroadcastsInDim S1024x2376 (![] : Fin 0 → Fin S1024x2376.rank)
  reducesTo_S1024x2376_S_d0_1 : S1024x2376.ReducesTo [0, 1] S_
  bcast_S_S1024 : S_.BroadcastsInDim S1024 (![] : Fin 0 → Fin S1024.rank)
  reducesTo_S1024_S_d0 : S1024.ReducesTo [0] S_
  bcast_S_S37x1024 : S_.BroadcastsInDim S37x1024 (![] : Fin 0 → Fin S37x1024.rank)
  reducesTo_S37x1024_S_d0_1 : S37x1024.ReducesTo [0, 1] S_
  bcast_S_S37 : S_.BroadcastsInDim S37 (![] : Fin 0 → Fin S37.rank)
  reducesTo_S37_S_d0 : S37.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S1024 .f32) (main_arg13 : FVec F S37x1024 .f32) (main_arg14 : FVec F S37 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg12
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S37x1024 .f32 := Host.absf main_arg13
  let main_cst_22 : FVec F S_ .f32 := constant S_ .f32 0x7F800000#32
  let main_v60 : FVec F S37x1024 .f32 := broadcastInDim S37x1024 ![] bcast_S_S37x1024 main_cst_22
  let main_v61 : IVec S37x1024 1 := cmpf .olt main_v59 main_v60
  let main_c_23 : IVec S_ 1 := constantI S_ 1 1#1
  let main_v62 : IVec S_ 1 := (fun x v => Host.reduce IntOp.andi x v reducesTo_S37x1024_S_d0_1 h_S_) main_v61 main_c_23
  let main_v63 : IVec S_ 1 := andi main_v58 main_v62
  let main_v64 : FVec F S37 .f32 := Host.absf main_arg14
  let main_cst_24 : FVec F S_ .f32 := constant S_ .f32 0x7F800000#32
  let main_v65 : FVec F S37 .f32 := broadcastInDim S37 ![] bcast_S_S37 main_cst_24
  let main_v66 : IVec S37 1 := cmpf .olt main_v64 main_v65
  let main_c_25 : IVec S_ 1 := constantI S_ 1 1#1
  let main_v67 : IVec S_ 1 := (fun x v => Host.reduce IntOp.andi x v reducesTo_S37_S_d0 h_S_) main_v66 main_c_25
  fn_part4 (F := F) main_v63 main_v67

def fn_part2 {F : FTy → Type} [FloatOps F] (main_arg8 : FVec F S128 .f32) (main_arg9 : FVec F S1024x2376 .f32) (main_arg10 : FVec F S1024 .f32) (main_arg11 : FVec F S1024 .f32) (main_arg12 : FVec F S1024 .f32) (main_arg13 : FVec F S37x1024 .f32) (main_arg14 : FVec F S37 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1024x2376 .f32 := Host.absf main_arg9
  let main_cst_14 : FVec F S_ .f32 := constant S_ .f32 0x7F800000#32
  let main_v40 : FVec F S1024x2376 .f32 := broadcastInDim S1024x2376 ![] bcast_S_S1024x2376 main_cst_14
  let main_v41 : IVec S1024x2376 1 := cmpf .olt main_v39 main_v40
  let main_c_15 : IVec S_ 1 := constantI S_ 1 1#1
  let main_v42 : IVec S_ 1 := (fun x v => Host.reduce IntOp.andi x v reducesTo_S1024x2376_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg12 main_arg13 main_arg14 main_v48 main_v49 main_v50

def fn_part1 {F : FTy → Type} [FloatOps F] (main_arg5 : FVec F S4 .f32) (main_arg6 : FVec F S4 .f32) (main_arg7 : FVec F S128x4 .f32) (main_arg8 : FVec F S128 .f32) (main_arg9 : FVec F S1024x2376 .f32) (main_arg10 : FVec F S1024 .f32) (main_arg11 : FVec F S1024 .f32) (main_arg12 : FVec F S1024 .f32) (main_arg13 : FVec F S37x1024 .f32) (main_arg14 : FVec F S37 .f32) (main_v13 : IVec S_ 1) (main_v16 : IVec S36x200 1) : IVec S_ 1 :=
  let main_c_5 : IVec S_ 1 := constantI S_ 1 1#1
  let main_v17 : IVec S_ 1 := (fun x v => Host.reduce IntOp.andi x v reducesTo_S36x200_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S128x4 .f32 := Host.absf main_arg7
  let main_cst_10 : FVec F S_ .f32 := constant S_ .f32 0x7F800000#32
  let main_v30 : FVec F S128x4 .f32 := broadcastInDim S128x4 ![] bcast_S_S128x4 main_cst_10
  let main_v31 : IVec S128x4 1 := cmpf .olt main_v29 main_v30
  let main_c_11 : IVec S_ 1 := constantI S_ 1 1#1
  let main_v32 : IVec S_ 1 := (fun x v => Host.reduce IntOp.andi x v reducesTo_S128x4_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S20000x36 .f32) (main_arg1 : FVec F S20000x5 .f32) (main_arg2 : FVec F S20000x2048 .f32) (main_arg3 : IVec S20000 32) (main_arg4 : FVec F S36x200 .f32) (main_arg5 : FVec F S4 .f32) (main_arg6 : FVec F S4 .f32) (main_arg7 : FVec F S128x4 .f32) (main_arg8 : FVec F S128 .f32) (main_arg9 : FVec F S1024x2376 .f32) (main_arg10 : FVec F S1024 .f32) (main_arg11 : FVec F S1024 .f32) (main_arg12 : FVec F S1024 .f32) (main_arg13 : FVec F S37x1024 .f32) (main_arg14 : FVec F S37 .f32) : IVec S_ 1 :=
  let main_v0 : FVec F S20000x36 .f32 := Host.absf main_arg0
  let main_cst : FVec F S_ .f32 := constant S_ .f32 0x7F800000#32
  let main_v1 : FVec F S20000x36 .f32 := broadcastInDim S20000x36 ![] bcast_S_S20000x36 main_cst
  let main_v2 : IVec S20000x36 1 := cmpf .olt main_v0 main_v1
  let main_c : IVec S_ 1 := constantI S_ 1 1#1
  let main_v3 : IVec S_ 1 := (fun x v => Host.reduce IntOp.andi x v reducesTo_S20000x36_S_d0_1 h_S_) main_v2 main_c
  let main_v4 : FVec F S20000x5 .f32 := Host.absf main_arg1
  let main_cst_0 : FVec F S_ .f32 := constant S_ .f32 0x7F800000#32
  let main_v5 : FVec F S20000x5 .f32 := broadcastInDim S20000x5 ![] bcast_S_S20000x5 main_cst_0
  let main_v6 : IVec S20000x5 1 := cmpf .olt main_v4 main_v5
  let main_c_1 : IVec S_ 1 := constantI S_ 1 1#1
  let main_v7 : IVec S_ 1 := (fun x v => Host.reduce IntOp.andi x v reducesTo_S20000x5_S_d0_1 h_S_) main_v6 main_c_1
  let main_v8 : IVec S_ 1 := andi main_v3 main_v7
  let main_v9 : FVec F S20000x2048 .f32 := Host.absf main_arg2
  let main_cst_2 : FVec F S_ .f32 := constant S_ .f32 0x7F800000#32
  let main_v10 : FVec F S20000x2048 .f32 := broadcastInDim S20000x2048 ![] bcast_S_S20000x2048 main_cst_2
  let main_v11 : IVec S20000x2048 1 := cmpf .olt main_v9 main_v10
  let main_c_3 : IVec S_ 1 := constantI S_ 1 1#1
  let main_v12 : IVec S_ 1 := (fun x v => Host.reduce IntOp.andi x v reducesTo_S20000x2048_S_d0_1 h_S_) main_v11 main_c_3
  let main_v13 : IVec S_ 1 := andi main_v8 main_v12
  let main_v14 : FVec F S36x200 .f32 := Host.absf main_arg4
  let main_cst_4 : FVec F S_ .f32 := constant S_ .f32 0x7F800000#32
  let main_v15 : FVec F S36x200 .f32 := broadcastInDim S36x200 ![] bcast_S_S36x200 main_cst_4
  let main_v16 : IVec S36x200 1 := cmpf .olt main_v14 main_v15
  fn_part1 (F := F) main_arg5 main_arg6 main_arg7 main_arg8 main_arg9 main_arg10 main_arg11 main_arg12 main_arg13 main_arg14 main_v13 main_v16
-- ==== Kernel.lean ====
abbrev S20000x36 : Shape := ⟨2, ![20000, 36]⟩
abbrev S20000x5 : Shape := ⟨2, ![20000, 5]⟩
abbrev S20000x2048 : Shape := ⟨2, ![20000, 2048]⟩
abbrev S20000 : Shape := ⟨1, ![20000]⟩
abbrev S36x200 : Shape := ⟨2, ![36, 200]⟩
abbrev S4 : Shape := ⟨1, ![4]⟩
abbrev S128x4 : Shape := ⟨2, ![128, 4]⟩
abbrev S128 : Shape := ⟨1, ![128]⟩
abbrev S1024x2376 : Shape := ⟨2, ![1024, 2376]⟩
abbrev S1024 : Shape := ⟨1, ![1024]⟩
abbrev S37x1024 : Shape := ⟨2, ![37, 1024]⟩
abbrev S37 : Shape := ⟨1, ![37]⟩
abbrev S625x160 : Shape := ⟨2, ![625, 160]⟩
abbrev S1x128 : Shape := ⟨2, ![1, 128]⟩
abbrev S1x4 : Shape := ⟨2, ![1, 4]⟩
abbrev S5x128 : Shape := ⟨2, ![5, 128]⟩
abbrev S625x158 : Shape := ⟨2, ![625, 158]⟩
abbrev S625x2 : Shape := ⟨2, ![625, 2]⟩
abbrev S160 : Shape := ⟨1, ![160]⟩
abbrev S1x160 : Shape := ⟨2, ![1, 160]⟩
abbrev S1x155 : Shape := ⟨2, ![1, 155]⟩
abbrev S1x5 : Shape := ⟨2, ![1, 5]⟩
abbrev S1x150 : Shape := ⟨2, ![1, 150]⟩
abbrev S1x10 : Shape := ⟨2, ![1, 10]⟩
abbrev S1x140 : Shape := ⟨2, ![1, 140]⟩
abbrev S1x20 : Shape := ⟨2, ![1, 20]⟩
abbrev S1x120 : Shape := ⟨2, ![1, 120]⟩
abbrev S1x40 : Shape := ⟨2, ![1, 40]⟩
abbrev S1x80 : Shape := ⟨2, ![1, 80]⟩
abbrev S1x2 : Shape := ⟨2, ![1, 2]⟩
abbrev S4x128 : Shape := ⟨2, ![4, 128]⟩
abbrev S1024x2048 : Shape := ⟨2, ![1024, 2048]⟩
abbrev S1024x128 : Shape := ⟨2, ![1024, 128]⟩
abbrev S1024x2176 : Shape := ⟨2, ![1024, 2176]⟩
abbrev S1024x200 : Shape := ⟨2, ![1024, 200]⟩
abbrev S200x1024 : Shape := ⟨2, ![200, 1024]⟩
abbrev S36x1024 : Shape := ⟨2, ![36, 1024]⟩
abbrev S1x1024 : Shape := ⟨2, ![1, 1024]⟩
abbrev S20000x1024 : Shape := ⟨2, ![20000, 1024]⟩
abbrev S1000x5 : Shape := ⟨2, ![1000, 5]⟩
abbrev S1000x36 : Shape := ⟨2, ![1000, 36]⟩
abbrev S1000x2048 : Shape := ⟨2, ![1000, 2048]⟩
abbrev S1000x1024 : Shape := ⟨2, ![1000, 1024]⟩
abbrev S1000x128 : Shape := ⟨2, ![1000, 128]⟩
abbrev S1000x2176 : Shape := ⟨2, ![1000, 2176]⟩
abbrev S1x37 : Shape := ⟨2, ![1, 37]⟩
abbrev S20000x37 : Shape := ⟨2, ![20000, 37]⟩
abbrev S1000x37 : Shape := ⟨2, ![1000, 37]⟩

abbrev nBuf : Space → Nat
  | .hbm => 38
  | .vmem => 32
  | .smem => 0
  | _ => 0

abbrev bufTy : (tb : Table) → Fin (tcTables nBuf tb) → BufTy
  | .hbm, ⟨0, _⟩ => ⟨S20000x36, .f32⟩
  | .hbm, ⟨1, _⟩ => ⟨S20000x5, .f32⟩
  | .hbm, ⟨2, _⟩ => ⟨S20000x2048, .f32⟩
  | .hbm, ⟨3, _⟩ => ⟨S20000, .i32⟩
  | .hbm, ⟨4, _⟩ => ⟨S36x200, .f32⟩
  | .hbm, ⟨5, _⟩ => ⟨S4, .f32⟩
  | .hbm, ⟨6, _⟩ => ⟨S4, .f32⟩
  | .hbm, ⟨7, _⟩ => ⟨S128x4, .f32⟩
  | .hbm, ⟨8, _⟩ => ⟨S128, .f32⟩
  | .hbm, ⟨9, _⟩ => ⟨S1024x2376, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S37x1024, .f32⟩
  | .hbm, ⟨14, _⟩ => ⟨S37, .f32⟩
  | .hbm, ⟨15, _⟩ => ⟨S625x160, .f32⟩
  | .hbm, ⟨16, _⟩ => ⟨S1x128, .f32⟩
  | .hbm, ⟨17, _⟩ => ⟨S1x4, .f32⟩
  | .hbm, ⟨18, _⟩ => ⟨S1x4, .f32⟩
  | .hbm, ⟨19, _⟩ => ⟨S5x128, .f32⟩
  | .hbm, ⟨20, _⟩ => ⟨S1x128, .f32⟩
  | .hbm, ⟨21, _⟩ => ⟨S1024x2048, .f32⟩
  | .hbm, ⟨22, _⟩ => ⟨S1024x128, .f32⟩
  | .hbm, ⟨23, _⟩ => ⟨S1024x2176, .f32⟩
  | .hbm, ⟨24, _⟩ => ⟨S1024x2176, .bf16⟩
  | .hbm, ⟨25, _⟩ => ⟨S1024x200, .f32⟩
  | .hbm, ⟨26, _⟩ => ⟨S200x1024, .f32⟩
  | .hbm, ⟨27, _⟩ => ⟨S36x1024, .f32⟩
  | .hbm, ⟨28, _⟩ => ⟨S36x1024, .bf16⟩
  | .hbm, ⟨29, _⟩ => ⟨S37x1024, .bf16⟩
  | .hbm, ⟨30, _⟩ => ⟨S1x1024, .f32⟩
  | .hbm, ⟨31, _⟩ => ⟨S20000x1024, .bf16⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x37, .f32⟩
  | .hbm, ⟨37, _⟩ => ⟨S20000x37, .f32⟩
  | .local _ .vmem, ⟨0, _⟩ => ⟨S625x160, .f32⟩
  | .local _ .vmem, ⟨1, _⟩ => ⟨S128x4, .f32⟩
  | .local _ .vmem, ⟨2, _⟩ => ⟨S1x128, .f32⟩
  | .local _ .vmem, ⟨3, _⟩ => ⟨S1x4, .f32⟩
  | .local _ .vmem, ⟨4, _⟩ => ⟨S1x4, .f32⟩
  | .local _ .vmem, ⟨5, _⟩ => ⟨S5x128, .f32⟩
  | .local _ .vmem, ⟨6, _⟩ => ⟨S1x128, .f32⟩
  | .local _ .vmem, ⟨7, _⟩ => ⟨S1000x5, .f32⟩
  | .local _ .vmem, ⟨8, _⟩ => ⟨S1000x5, .f32⟩
  | .local _ .vmem, ⟨9, _⟩ => ⟨S1000x36, .f32⟩
  | .local _ .vmem, ⟨10, _⟩ => ⟨S1000x36, .f32⟩
  | .local _ .vmem, ⟨11, _⟩ => ⟨S1000x2048, .f32⟩
  | .local _ .vmem, ⟨12, _⟩ => ⟨S1000x2048, .f32⟩
  | .local _ .vmem, ⟨13, _⟩ => ⟨S5x128, .f32⟩
  | .local _ .vmem, ⟨14, _⟩ => ⟨S1x128, .f32⟩
  | .local _ .vmem, ⟨15, _⟩ => ⟨S36x1024, .bf16⟩
  | .local _ .vmem, ⟨16, _⟩ => ⟨S1024x2176, .bf16⟩
  | .local _ .vmem, ⟨17, _⟩ => ⟨S1x1024, .f32⟩
  | .local _ .vmem, ⟨18, _⟩ => ⟨S1000x1024, .bf16⟩
  | .local _ .vmem, ⟨19, _⟩ => ⟨S1000x1024, .bf16⟩
  | .local _ .vmem, ⟨20, _⟩ => ⟨S1x1024, .f32⟩
  | .local _ .vmem, ⟨21, _⟩ => ⟨S1x1024, .f32⟩
  | .local _ .vmem, ⟨22, _⟩ => ⟨S1000x1024, .bf16⟩
  | .local _ .vmem, ⟨23, _⟩ => ⟨S1000x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S37x1024, .bf16⟩
  | .local _ .vmem, ⟨29, _⟩ => ⟨S1x37, .f32⟩
  | .local _ .vmem, ⟨30, _⟩ => ⟨S1000x37, .f32⟩
  | .local _ .vmem, ⟨31, _⟩ => ⟨S1000x37, .f32⟩
  | _, _ => ⟨S20000x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg10_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem10_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := .none

abbrev stage0_0 : Fin 1 → Memref sig .tc .vmem S625x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![20], ![false]⟩

def k1_cond1 (i : grid1.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_22 : BitVec 32 := 0#32
  let v36 : BitVec 1 := Scalar.cmpi .ne v35 c0_i32_22
  v36

def k1_cond2 (i : grid1.Coords) : BitVec 1 :=
  let arg0 : BitVec 32 := BitVec.ofNat 32 (i 0).val
  let c0_i32_23 : BitVec 32 := 0#32
  let v37 : BitVec 1 := Scalar.cmpi .sgt arg0 c0_i32_23
  let v38 : BitVec 32 := Scalar.extui v37
  let c0_i32_24 : BitVec 32 := 0#32
  let v39 : BitVec 1 := Scalar.cmpi .ne v38 c0_i32_24
  v39

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x36 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S5x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S36x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x2176 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S37x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x37 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x37 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S20000x5_S625x160 : S20000x5.ShapeCasts S625x160
  bcast_S128_S1x128_1 : S128.BroadcastsInDim S1x128 (![1] : Fin 1 → Fin S1x128.rank)
  bcast_S4_S1x4_1 : S4.BroadcastsInDim S1x4 (![1] : Fin 1 → Fin S1x4.rank)
  inb_S625x160_S625x160_0_0 : ∀ a, (![0, 0] : Fin 2 → Nat) a + S625x160.size a ≤ S625x160.size a
  h_S625x160 : 0 < S625x160.numel
  shapeCasts_S625x160_S625x160 : S625x160.ShapeCasts S625x160
  slices_S625x160_o0_2_S625x158 : S625x160.Slices ![0, 2] S625x158
  slices_S625x160_o0_0_S625x2 : S625x160.Slices ![0, 0] S625x2
  concatenates_S625x158_S625x2_S625x160_d1 : Shape.Concatenates [S625x158, S625x2] S625x160 1
  reduces_S625x160_S160 : S625x160.Reduces [0] S160
  shapeCasts_S160_S1x160 : S160.ShapeCasts S1x160
  slices_S1x160_o0_5_S1x155 : S1x160.Slices ![0, 5] S1x155
  slices_S1x160_o0_0_S1x5 : S1x160.Slices ![0, 0] S1x5
  concatenates_S1x155_S1x5_S1x160_d1 : Shape.Concatenates [S1x155, S1x5] S1x160 1
  slices_S1x160_o0_10_S1x150 : S1x160.Slices ![0, 10] S1x150
  slices_S1x160_o0_0_S1x10 : S1x160.Slices ![0, 0] S1x10
  concatenates_S1x150_S1x10_S1x160_d1 : Shape.Concatenates [S1x150, S1x10] S1x160 1
  slices_S1x160_o0_20_S1x140 : S1x160.Slices ![0, 20] S1x140
  slices_S1x160_o0_0_S1x20 : S1x160.Slices ![0, 0] S1x20
  concatenates_S1x140_S1x20_S1x160_d1 : Shape.Concatenates [S1x140, S1x20] S1x160 1
  slices_S1x160_o0_40_S1x120 : S1x160.Slices ![0, 40] S1x120
  slices_S1x160_o0_0_S1x40 : S1x160.Slices ![0, 0] S1x40
  concatenates_S1x120_S1x40_S1x160_d1 : Shape.Concatenates [S1x120, S1x40] S1x160 1
  slices_S1x160_o0_80_S1x80 : S1x160.Slices ![0, 80] S1x80
  slices_S1x160_o0_0_S1x80 : S1x160.Slices ![0, 0] S1x80
  concatenates_S1x80_S1x80_S1x160_d1 : Shape.Concatenates [S1x80, S1x80] S1x160 1
  slices_S1x160_o0_1_S1x2 : S1x160.Slices ![0, 1] S1x2
  concatenates_S1x2_S1x2_S1x4_d1 : Shape.Concatenates [S1x2, S1x2] S1x4 1
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S128x4_S128x4_0_0 : ∀ a, (![0, 0] : Fin 2 → Nat) a + S128x4.size a ≤ S128x4.size a
  h_S128x4 : 0 < S128x4.numel
  broadcasts_S1x4_S128x4 : S1x4.Broadcasts S128x4
  transposes_S128x4_p1_0_S4x128 : S128x4.Transposes [1, 0] S4x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S128x4_S128 : S128x4.Reduces [1] S128
  shapeCasts_S128_S1x128 : S128.ShapeCasts S1x128
  slices_S4x128_o0_0_S1x128 : S4x128.Slices ![0, 0] S1x128
  slices_S4x128_o2_0_S1x128 : S4x128.Slices ![2, 0] S1x128
  slices_S4x128_o1_0_S1x128 : S4x128.Slices ![1, 0] S1x128
  slices_S4x128_o3_0_S1x128 : S4x128.Slices ![3, 0] S1x128
  concatenates_S1x128_S1x128_S1x128_S1x128_S1x128_S5x128_d0 : Shape.Concatenates [S1x128, S1x128, S1x128, S1x128, S1x128] S5x128 0
  inb_S5x128_S5x128_0_0 : ∀ a, (![0, 0] : Fin 2 → Nat) a + S5x128.size a ≤ S5x128.size a
  h_S5x128 : 0 < S5x128.numel
  slices_S1024x2376_S1024x2048_0_0 : S1024x2376.Slices ![0, 0] S1024x2048
  slices_S1024x2376_S1024x128_0_2248 : S1024x2376.Slices ![0, 2248] S1024x128
  concatenates_S1024x2048_S1024x128_S1024x2176_d1 : Shape.Concatenates [S1024x2048, S1024x128] S1024x2176 1
  bitsLt_bf16_f32 : FTy.bits .bf16 < FTy.bits .f32
  slices_S1024x2376_S1024x200_0_2048 : S1024x2376.Slices ![0, 2048] S1024x200
  transposes_S1024x200_S200x1024_1_0 : S1024x200.Transposes [1, 0] S200x1024
  bcast_S1024_S1x1024_1 : S1024.BroadcastsInDim S1x1024 (![1] : Fin 1 → Fin S1x1024.rank)
  inb_S1000x5_S1000x5_0_0 : ∀ a, (![0, 0] : Fin 2 → Nat) a + S1000x5.size a ≤ S1000x5.size a
  h_S1000x5 : 0 < S1000x5.numel
  shapeCasts_S5x128_S5x128 : S5x128.ShapeCasts S5x128
  broadcasts_S1x128_S1000x128 : S1x128.Broadcasts S1000x128
  inb_S1000x2048_S1000x2048_0_0 : ∀ a, (![0, 0] : Fin 2 → Nat) a + S1000x2048.size a ≤ S1000x2048.size a
  h_S1000x2048 : 0 < S1000x2048.numel
  concatenates_S1000x2048_S1000x128_S1000x2176_d1 : Shape.Concatenates [S1000x2048, S1000x128] S1000x2176 1
  inb_S1024x2176_S1024x2176_0_0 : ∀ a, (![0, 0] : Fin 2 → Nat) a + S1024x2176.size a ≤ S1024x2176.size a
  h_S1024x2176 : 0 < S1024x2176.numel
  shapeCasts_S1024x2176_S1024x2176 : S1024x2176.ShapeCasts S1024x2176
  inb_S1000x36_S1000x36_0_0 : ∀ a, (![0, 0] : Fin 2 → Nat) a + S1000x36.size a ≤ S1000x36.size a
  h_S1000x36 : 0 < S1000x36.numel
  inb_S36x1024_S36x1024_0_0 : ∀ a, (![0, 0] : Fin 2 → Nat) a + S36x1024.size a ≤ S36x1024.size a
  h_S36x1024 : 0 < S36x1024.numel
  shapeCasts_S36x1024_S36x1024 : S36x1024.ShapeCasts S36x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  packedbf16_S1000x1024_S1000x1024_0_0 : (Rect.unit (s := S1000x1024) ![0, 0] S1000x1024.size inb_S1000x1024_S1000x1024_0_0).PackedRows (EltTy.packing .bf16)
  reduces_S1000x1024_S1024 : S1000x1024.Reduces [0] S1024
  shapeCasts_S1024_S1x1024 : S1024.ShapeCasts S1x1024
  bcast_S37_S1x37_1 : S37.BroadcastsInDim S1x37 (![1] : Fin 1 → Fin S1x37.rank)
  shapeCasts_S1000x1024_S1000x1024 : S1000x1024.ShapeCasts S1000x1024
  inb_S37x1024_S37x1024_0_0 : ∀ a, (![0, 0] : Fin 2 → Nat) a + S37x1024.size a ≤ S37x1024.size a
  h_S37x1024 : 0 < S37x1024.numel
  shapeCasts_S37x1024_S37x1024 : S37x1024.ShapeCasts S37x1024
  inb_S1x37_S1x37_0_0 : ∀ a, (![0, 0] : Fin 2 → Nat) a + S1x37.size a ≤ S1x37.size a
  h_S1x37 : 0 < S1x37.numel
  shapeCasts_S1x37_S1x37 : S1x37.ShapeCasts S1x37
  broadcasts_S1x37_S1000x37 : S1x37.Broadcasts S1000x37
  inb_S1000x37_S1000x37_0_0 : ∀ a, (![0, 0] : Fin 2 → Nat) a + S1000x37.size a ≤ S1000x37.size a
  h_S1000x37 : 0 < S1000x37.numel
  dot_S36x200_S200x1024_S36x1024_1_0_0_1_n_n_wf : DotDims.WF S36x200 S200x1024 S36x1024 [1] [0] [0] [1] [] []
  dot_S1000x5_S5x128_S1000x128_1_0_0_1_n_n_wf : DotDims.WF S1000x5 S5x128 S1000x128 [1] [0] [0] [1] [] []
  dot_S1000x2176_S1024x2176_S1000x1024_1_1_0_0_n_n_wf : DotDims.WF S1000x2176 S1024x2176 S1000x1024 [1] [1] [0] [0] [] []
  dot_S1000x36_S36x1024_S1000x1024_1_0_0_1_n_n_wf : DotDims.WF S1000x36 S36x1024 S1000x1024 [1] [0] [0] [1] [] []
  dot_S1000x1024_S37x1024_S1000x37_1_1_0_0_n_n_wf : DotDims.WF S1000x1024 S37x1024 S1000x37 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x5.size a ≤ S20000x5.size a
  hwx1_0 : ∀ i : grid1.Coords, EltTy.bits .f32 = 32 ∨ (Rect.block (s := S20000x5) S1000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x36.size a ≤ S20000x36.size a
  hwx1_1 : ∀ i : grid1.Coords, EltTy.bits .f32 = 32 ∨ (Rect.block (s := S20000x36) S1000x36.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x2048.size a ≤ S20000x2048.size a
  hwx1_2 : ∀ i : grid1.Coords, EltTy.bits .f32 = 32 ∨ (Rect.block (s := S20000x2048) S1000x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x128.size a ≤ S5x128.size a
  hwx1_3 : ∀ i : grid1.Coords, EltTy.bits .f32 = 32 ∨ (Rect.block (s := S5x128) S5x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S36x1024.size a ≤ S36x1024.size a
  hwx1_5 : ∀ i : grid1.Coords, EltTy.bits .bf16 = 32 ∨ (Rect.block (s := S36x1024) S36x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x2176.size a ≤ S1024x2176.size a
  hwx1_6 : ∀ i : grid1.Coords, EltTy.bits .bf16 = 32 ∨ (Rect.block (s := S1024x2176) S1024x2176.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x1024.size a ≤ S20000x1024.size a
  hwx1_8 : ∀ i : grid1.Coords, EltTy.bits .bf16 = 32 ∨ (Rect.block (s := S20000x1024) S1000x1024.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x1024.size a
  hwx1_9 : ∀ i : grid1.Coords, EltTy.bits .f32 = 32 ∨ (Rect.block (s := S1x1024) S1x1024.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1024.size a ≤ S1x1024.size a
  hwx1_10 : ∀ i : grid1.Coords, EltTy.bits .f32 = 32 ∨ (Rect.block (s := S1x1024) S1x1024.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x1024.size a ≤ S20000x1024.size a
  hwx2_0 : ∀ i : grid2.Coords, EltTy.bits .bf16 = 32 ∨ (Rect.block (s := S20000x1024) S1000x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S37x1024.size a ≤ S37x1024.size a
  hwx2_5 : ∀ i : grid2.Coords, EltTy.bits .bf16 = 32 ∨ (Rect.block (s := S37x1024) S37x1024.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x37.size a ≤ S1x37.size a
  hwx2_6 : ∀ i : grid2.Coords, EltTy.bits .f32 = 32 ∨ (Rect.block (s := S1x37) S1x37.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x37.size a ≤ S20000x37.size a
  hwx2_7 : ∀ i : grid2.Coords, EltTy.bits .f32 = 32 ∨ (Rect.block (s := S20000x37) S1000x37.size (cc2_transform_7 i) (hinb2_7 i)).WholeWords (EltTy.packing .f32)

variable [Facts₀]

def dot_S36x200_S200x1024_S36x1024_1_0_0_1_n_n : DotDims S36x200 S200x1024 S36x1024 where
  lhsContracting := [1]
  rhsContracting := [0]
  lhsNonContracting := [0]
  rhsNonContracting := [1]
  lhsBatch := []
  rhsBatch := []
  wf := dot_S36x200_S200x1024_S36x1024_1_0_0_1_n_n_wf
def dot_S1000x5_S5x128_S1000x128_1_0_0_1_n_n : DotDims S1000x5 S5x128 S1000x128 where
  lhsContracting := [1]
  rhsContracting := [0]
  lhsNonContracting := [0]
  rhsNonContracting := [1]
  lhsBatch := []
  rhsBatch := []
  wf := dot_S1000x5_S5x128_S1000x128_1_0_0_1_n_n_wf
def dot_S1000x2176_S1024x2176_S1000x1024_1_1_0_0_n_n : DotDims S1000x2176 S1024x2176 S1000x1024 where
  lhsContracting := [1]
  rhsContracting := [1]
  lhsNonContracting := [0]
  rhsNonContracting := [0]
  lhsBatch := []
  rhsBatch := []
  wf := dot_S1000x2176_S1024x2176_S1000x1024_1_1_0_0_n_n_wf
def dot_S1000x36_S36x1024_S1000x1024_1_0_0_1_n_n : DotDims S1000x36 S36x1024 S1000x1024 where
  lhsContracting := [1]
  rhsContracting := [0]
  lhsNonContracting := [0]
  rhsNonContracting := [1]
  lhsBatch := []
  rhsBatch := []
  wf := dot_S1000x36_S36x1024_S1000x1024_1_0_0_1_n_n_wf
def dot_S1000x1024_S37x1024_S1000x37_1_1_0_0_n_n : DotDims S1000x1024 S37x1024 S1000x37 where
  lhsContracting := [1]
  rhsContracting := [1]
  lhsNonContracting := [0]
  rhsNonContracting := [0]
  lhsBatch := []
  rhsBatch := []
  wf := dot_S1000x1024_S37x1024_S1000x37_1_1_0_0_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg7) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v2) false false (stage0_3 0) (sem0_3 0) (Memref.isWhole_whole _) (hstage0_3 0)

abbrev win0_4 : Pipeline.Window sig grid0 :=
  Pipeline.Window.whole (Memref.whole main_v3) false false (stage0_4 0) (sem0_4 0) (Memref.isWhole_whole _) (hstage0_4 0)

abbrev win0_5 : Pipeline.Window sig grid0 :=
  Pipeline.Window.whole (Memref.whole main_v4_0) true false (stage0_5 0) (sem0_5 0) (Memref.isWhole_whole _) (hstage0_5 0)

abbrev win0_6 : Pipeline.Window sig grid0 :=
  Pipeline.Window.whole (Memref.whole main_v4_1) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S1000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x36.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1000x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S5x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S36x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1024x2176.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15_0) S1000x1024.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v15_1) S1x1024.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v15_2) S1x1024.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond1 i == 1#1) && !(k1_cond2 i == 1#1) | 10 => fun i => !(k1_cond1 i == 1#1) && !(k1_cond2 i == 1#1) | ⟨_ + 11, h⟩ => absurd h (Nat.not_lt.2 (Nat.le_add_left _ _))

abbrev win2_0 : Pipeline.Window sig grid2 :=
  Pipeline.Window.ofSpec (Memref.whole main_v15_0) S1000x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15_1) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15_2) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S37x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18) S1x37.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v19) S1000x37.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S20000x36 : Shape := ⟨2, ![20000, 36]⟩
abbrev S20000x5 : Shape := ⟨2, ![20000, 5]⟩
abbrev S20000x2048 : Shape := ⟨2, ![20000, 2048]⟩
abbrev S20000 : Shape := ⟨1, ![20000]⟩
abbrev S36x200 : Shape := ⟨2, ![36, 200]⟩
abbrev S4 : Shape := ⟨1, ![4]⟩
abbrev S128x4 : Shape := ⟨2, ![128, 4]⟩
abbrev S128 : Shape := ⟨1, ![128]⟩
abbrev S1024x2376 : Shape := ⟨2, ![1024, 2376]⟩
abbrev S1024 : Shape := ⟨1, ![1024]⟩
abbrev S37x1024 : Shape := ⟨2, ![37, 1024]⟩
abbrev S37 : Shape := ⟨1, ![37]⟩
abbrev S20000x200 : Shape := ⟨2, ![20000, 200]⟩
abbrev S20000x4 : Shape := ⟨2, ![20000, 4]⟩
abbrev S20000x2 : Shape := ⟨2, ![20000, 2]⟩
abbrev S_ : Shape := ⟨0, ![]⟩
abbrev S1x4 : Shape := ⟨2, ![1, 4]⟩
abbrev S4x128 : Shape := ⟨2, ![4, 128]⟩
abbrev S20000x128 : Shape := ⟨2, ![20000, 128]⟩
abbrev S1x128 : Shape := ⟨2, ![1, 128]⟩
abbrev S20000x2376 : Shape := ⟨2, ![20000, 2376]⟩
abbrev S2376x1024 : Shape := ⟨2, ![2376, 1024]⟩
abbrev S20000x1024 : Shape := ⟨2, ![20000, 1024]⟩
abbrev S1x1024 : Shape := ⟨2, ![1, 1024]⟩
abbrev S1024x37 : Shape := ⟨2, ![1024, 37]⟩
abbrev S20000x37 : Shape := ⟨2, ![20000, 37]⟩
abbrev S1x37 : Shape := ⟨2, ![1, 37]⟩

abbrev nBuf : Space → Nat
  | .hbm => 139
  | .vmem => 0
  | .smem => 0
  | _ => 0

abbrev hbmTy0_0 (i : Nat) : BufTy := match i % 128 with
  | 0 => ⟨S20000x36, .f32⟩
  | 1 => ⟨S20000x5, .f32⟩
  | 2 => ⟨S20000x2048, .f32⟩
  | 3 => ⟨S20000, .i32⟩
  | 4 => ⟨S36x200, .f32⟩
  | 5 => ⟨S4, .f32⟩
  | 6 => ⟨S4, .f32⟩
  | 7 => ⟨S128x4, .f32⟩
  | 8 => ⟨S128, .f32⟩
  | 9 => ⟨S1024x2376, .f32⟩
  | 10 => ⟨S1024, .f32⟩
  | 11 => ⟨S1024, .f32⟩
  | 12 => ⟨S1024, .f32⟩
  | 13 => ⟨S37x1024, .f32⟩
  | 14 => ⟨S37, .f32⟩
  | 15 => ⟨S20000x200, .f32⟩
  | 16 => ⟨S20000x4, .f32⟩
  | 17 => ⟨S20000x2, .f32⟩
  | 18 => ⟨S20000x2, .f32⟩
  | 19 => ⟨S20000x2, .f32⟩
  | 20 => ⟨S_, .f32⟩
  | 21 => ⟨S20000x2, .f32⟩
  | 22 => ⟨S20000x2, .f32⟩
  | 23 => ⟨S20000x2, .f32⟩
  | 24 => ⟨S_, .f32⟩
  | 25 => ⟨S20000x2, .f32⟩
  | 26 => ⟨S20000x2, .f32⟩
  | 27 => ⟨S20000x2, .f32⟩
  | 28 => ⟨S20000x4, .f32⟩
  | 29 => ⟨S_, .f32⟩
  | 30 => ⟨S4, .f32⟩
  | 31 => ⟨S_, .f32⟩
  | 32 => ⟨S4, .f32⟩
  | 33 => ⟨S4, .f32⟩
  | 34 => ⟨S_, .i32⟩
  | 35 => ⟨S_, .f32⟩
  | 36 => ⟨S4, .f32⟩
  | 37 => ⟨S1x4, .f32⟩
  | 38 => ⟨S_, .f32⟩
  | 39 => ⟨S1x4, .f32⟩
  | 40 => ⟨S1x4, .f32⟩
  | 41 => ⟨S20000x4, .f32⟩
  | 42 => ⟨S20000x4, .f32⟩
  | 43 => ⟨S20000x4, .f32⟩
  | 44 => ⟨S_, .f32⟩
  | 45 => ⟨S_, .f32⟩
  | 46 => ⟨S_, .f32⟩
  | 47 => ⟨S_, .f32⟩
  | 48 => ⟨S4, .f32⟩
  | 49 => ⟨S4, .f32⟩
  | 50 => ⟨S4, .f32⟩
  | 51 => ⟨S_, .f32⟩
  | 52 => ⟨S_, .i1⟩
  | 53 => ⟨S_, .f32⟩
  | 54 => ⟨S_, .f32⟩
  | 55 => ⟨S4, .f32⟩
  | 56 => ⟨S4, .f32⟩
  | 57 => ⟨S1x4, .f32⟩
  | 58 => ⟨S20000x4, .f32⟩
  | 59 => ⟨S20000x4, .f32⟩
  | 60 => ⟨S_, .f32⟩
  | 61 => ⟨S4, .f32⟩
  | 62 => ⟨S4, .f32⟩
  | 63 => ⟨S4, .f32⟩
  | 64 => ⟨S1x4, .f32⟩
  | 65 => ⟨S20000x4, .f32⟩
  | 66 => ⟨S20000x4, .f32⟩
  | 67 => ⟨S1x4, .f32⟩
  | 68 => ⟨S20000x4, .f32⟩
  | 69 => ⟨S20000x4, .f32⟩
  | 70 => ⟨S1x4, .f32⟩
  | 71 => ⟨S20000x4, .f32⟩
  | 72 => ⟨S20000x4, .f32⟩
  | 73 => ⟨S4x128, .f32⟩
  | 74 => ⟨S20000x128, .f32⟩
  | 75 => ⟨S1x128, .f32⟩
  | 76 => ⟨S20000x128, .f32⟩
  | 77 => ⟨S20000x128, .f32⟩
  | 78 => ⟨S_, .f32⟩
  | 79 => ⟨S20000x128, .f32⟩
  | 80 => ⟨S20000x128, .f32⟩
  | 81 => ⟨S20000x2376, .f32⟩
  | 82 => ⟨S2376x1024, .f32⟩
  | 83 => ⟨S20000x1024, .f32⟩
  | 84 => ⟨S1x1024, .f32⟩
  | 85 => ⟨S20000x1024, .f32⟩
  | 86 => ⟨S20000x1024, .f32⟩
  | 87 => ⟨S_, .f32⟩
  | 88 => ⟨S1024, .f32⟩
  | 89 => ⟨S_, .f32⟩
  | 90 => ⟨S1024, .f32⟩
  | 91 => ⟨S1024, .f32⟩
  | 92 => ⟨S_, .i32⟩
  | 93 => ⟨S_, .f32⟩
  | 94 => ⟨S1024, .f32⟩
  | 95 => ⟨S1x1024, .f32⟩
  | 96 => ⟨S_, .f32⟩
  | 97 => ⟨S1x1024, .f32⟩
  | 98 => ⟨S1x1024, .f32⟩
  | 99 => ⟨S20000x1024, .f32⟩
  | 100 => ⟨S20000x1024, .f32⟩
  | 101 => ⟨S20000x1024, .f32⟩
  | 102 => ⟨S_, .f32⟩
  | 103 => ⟨S_, .f32⟩
  | 104 => ⟨S_, .f32⟩
  | 105 => ⟨S_, .f32⟩
  | 106 => ⟨S1024, .f32⟩
  | 107 => ⟨S1024, .f32⟩
  | 108 => ⟨S1024, .f32⟩
  | 109 => ⟨S_, .f32⟩
  | 110 => ⟨S_, .i1⟩
  | 111 => ⟨S_, .f32⟩
  | 112 => ⟨S_, .f32⟩
  | 113 => ⟨S1024, .f32⟩
  | 114 => ⟨S1024, .f32⟩
  | 115 => ⟨S1x1024, .f32⟩
  | 116 => ⟨S20000x1024, .f32⟩
  | 117 => ⟨S20000x1024, .f32⟩
  | 118 => ⟨S_, .f32⟩
  | 119 => ⟨S1024, .f32⟩
  | 120 => ⟨S1024, .f32⟩
  | 121 => ⟨S1024, .f32⟩
  | 122 => ⟨S1x1024, .f32⟩
  | 123 => ⟨S20000x1024, .f32⟩
  | 124 => ⟨S20000x1024, .f32⟩
  | 125 => ⟨S1x1024, .f32⟩
  | 126 => ⟨S20000x1024, .f32⟩
  | 127 => ⟨S20000x1024, .f32⟩
  | _ => ⟨S20000x36, .f32⟩

abbrev hbmTy0_1 (i : Nat) : BufTy := match i % 128 with
  | 0 => ⟨S1x1024, .f32⟩
  | 1 => ⟨S20000x1024, .f32⟩
  | 2 => ⟨S20000x1024, .f32⟩
  | 3 => ⟨S_, .f32⟩
  | 4 => ⟨S20000x1024, .f32⟩
  | 5 => ⟨S20000x1024, .f32⟩
  | 6 => ⟨S1024x37, .f32⟩
  | 7 => ⟨S20000x37, .f32⟩
  | 8 => ⟨S1x37, .f32⟩
  | 9 => ⟨S20000x37, .f32⟩
  | 10 => ⟨S20000x37, .f32⟩
  | _ => ⟨S20000x36, .f32⟩

abbrev hbmTy (i : Nat) : BufTy := match i / 128 with
  | 0 => hbmTy0_0 i
  | 1 => hbmTy0_1 i
  | _ => ⟨S20000x36, .f32⟩

abbrev bufTy : (tb : Table) → Fin (tcTables nBuf tb) → BufTy
  | .hbm, ⟨i, _⟩ => hbmTy i
  | _, _ => ⟨S20000x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_cst_3 : Ref sig .tc := ⟨.hbm, 51, rfl⟩
abbrev main_call0_v12 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_cst_3 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_call1_cst : Ref sig .tc := ⟨.hbm, 78, rfl⟩
abbrev main_call1_v0 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_4 : Ref sig .tc := ⟨.hbm, 87, rfl⟩
abbrev main_v43 : Ref sig .tc := ⟨.hbm, 88, rfl⟩
abbrev main_cst_5 : Ref sig .tc := ⟨.hbm, 89, rfl⟩
abbrev main_v44 : Ref sig .tc := ⟨.hbm, 90, rfl⟩
abbrev main_v45 : Ref sig .tc := ⟨.hbm, 91, rfl⟩
abbrev main_c_6 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_cst_1 : Ref sig .tc := ⟨.hbm, 103, rfl⟩
abbrev main_call2_v8 : Ref sig .tc := ⟨.hbm, 104, rfl⟩
abbrev main_call2_cst_2 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_cst_3 : Ref sig .tc := ⟨.hbm, 109, rfl⟩
abbrev main_call2_v12 : Ref sig .tc := ⟨.hbm, 110, rfl⟩
abbrev main_call2_cst_4 : Ref sig .tc := ⟨.hbm, 111, rfl⟩
abbrev main_call2_call0_v0 : Ref sig .tc := ⟨.hbm, 112, rfl⟩
abbrev main_call2_call0_v1 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_cst_7 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_call3_cst : Ref sig .tc := ⟨.hbm, 131, rfl⟩
abbrev main_call3_v0 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩

abbrev nD : Nat := 1
abbrev τ : Topo := Topo.v7x

variable {F : FTy → Type} [FloatOps F]

class Facts₀ : Prop where
  slices_S20000x5_S20000x4_0_1 : S20000x5.Slices ![0, 1] S20000x4
  slices_S20000x4_S20000x2_0_2 : S20000x4.Slices ![0, 2] S20000x2
  slices_S20000x4_S20000x2_0_0 : S20000x4.Slices ![0, 0] S20000x2
  bcast_S_S20000x2 : S_.BroadcastsInDim S20000x2 (![] : Fin 0 → Fin S20000x2.rank)
  concatenates_S20000x2_S20000x2_S20000x4_d1 : Shape.Concatenates [S20000x2, S20000x2] S20000x4 1
  reducesTo_S20000x4_S4_d0 : S20000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S_S1x4 : S_.BroadcastsInDim S1x4 (![] : Fin 0 → Fin S1x4.rank)
  bcast_S1x4_S20000x4_0_1 : S1x4.BroadcastsInDim S20000x4 (![0, 1] : Fin 2 → Fin S20000x4.rank)
  transposes_S128x4_S4x128_1_0 : S128x4.Transposes [1, 0] S4x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  concatenates_S20000x2048_S20000x200_S20000x128_S20000x2376_d1 : Shape.Concatenates [S20000x2048, S20000x200, S20000x128] S20000x2376 1
  transposes_S1024x2376_S2376x1024_1_0 : S1024x2376.Transposes [1, 0] S2376x1024
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  reducesTo_S20000x1024_S1024_d0 : S20000x1024.ReducesTo [0] S1024
  bcast_S_S1024 : S_.BroadcastsInDim S1024 (![] : Fin 0 → Fin S1024.rank)
  bcast_S_S1x1024 : S_.BroadcastsInDim S1x1024 (![] : Fin 0 → Fin S1x1024.rank)
  bcast_S_S20000x1024 : S_.BroadcastsInDim S20000x1024 (![] : Fin 0 → Fin S20000x1024.rank)
  transposes_S37x1024_S1024x37_1_0 : S37x1024.Transposes [1, 0] S1024x37
  bcast_S37_S1x37_1 : S37.BroadcastsInDim S1x37 (![1] : Fin 1 → Fin S1x37.rank)
  bcast_S1x37_S20000x37_0_1 : S1x37.BroadcastsInDim S20000x37 (![0, 1] : Fin 2 → Fin S20000x37.rank)
  dot_S20000x36_S36x200_S20000x200_1_0_0_1_n_n_wf : DotDims.WF S20000x36 S36x200 S20000x200 [1] [0] [0] [1] [] []
  dot_S20000x4_S4x128_S20000x128_1_0_0_1_n_n_wf : DotDims.WF S20000x4 S4x128 S20000x128 [1] [0] [0] [1] [] []
  dot_S20000x2376_S2376x1024_S20000x1024_1_0_0_1_n_n_wf : DotDims.WF S20000x2376 S2376x1024 S20000x1024 [1] [0] [0] [1] [] []
  dot_S20000x1024_S1024x37_S20000x37_1_0_0_1_n_n_wf : DotDims.WF S20000x1024 S1024x37 S20000x37 [1] [0] [0] [1] [] []

variable [Facts₀]

def dot_S20000x36_S36x200_S20000x200_1_0_0_1_n_n : DotDims S20000x36 S36x200 S20000x200 where
  lhsContracting := [1]
  rhsContracting := [0]
  lhsNonContracting := [0]
  rhsNonContracting := [1]
  lhsBatch := []
  rhsBatch := []
  wf := dot_S20000x36_S36x200_S20000x200_1_0_0_1_n_n_wf
def dot_S20000x4_S4x128_S20000x128_1_0_0_1_n_n : DotDims S20000x4 S4x128 S20000x128 where
  lhsContracting := [1]
  rhsContracting := [0]
  lhsNonContracting := [0]
  rhsNonContracting := [1]
  lhsBatch := []
  rhsBatch := []
  wf := dot_S20000x4_S4x128_S20000x128_1_0_0_1_n_n_wf
def dot_S20000x2376_S2376x1024_S20000x1024_1_0_0_1_n_n : DotDims S20000x2376 S2376x1024 S20000x1024 where
  lhsContracting := [1]
  rhsContracting := [0]
  lhsNonContracting := [0]
  rhsNonContracting := [1]
  lhsBatch := []
  rhsBatch := []
  wf := dot_S20000x2376_S2376x1024_S20000x1024_1_0_0_1_n_n_wf
def dot_S20000x1024_S1024x37_S20000x37_1_0_0_1_n_n : DotDims S20000x1024 S1024x37 S20000x37 where
  lhsContracting := [1]
  rhsContracting := [0]
  lhsNonContracting := [0]
  rhsNonContracting := [1]
  lhsBatch := []
  rhsBatch := []
  wf := dot_S20000x1024_S1024x37_S20000x37_1_0_0_1_n_n_wf

class Facts : Prop extends Facts₀ where

variable [Facts]
-- ==== Proof.K.Reg0Defs.lean ====
import proofs.«145576_g33105607918058_cont_8to1_b_384_29_alg».proof.Proof.Gen.Kernel.Launch
import proofs.«145576_g33105607918058_cont_8to1_b_384_29_alg».proof.Proof.Gen.Kernel.Skeleton
import proofs.«145576_g33105607918058_cont_8to1_b_384_29_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA
open Idealize.ShloMosaic.Pipeline (Dat)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_5 : Rect S5x128 := .unit _ _ inb_S5x128_S5x128_0_0
abbrev r0_6 : Rect S1x128 := .unit _ _ inb_S1x128_S1x128_0_0

variable (x0 : Vec F S625x160 .f32) (x1 : Vec F S128x4 .f32) (x2 : Vec F S1x128 .f32) (x3 x4 : Vec F S1x4 .f32)

def m105 : FVec F S1x4 .f32 :=
  k0_pay11 (k0_pay7 (View.ld x0 (.unit _ _ inb_S625x160_S625x160_0_0))) (k0_pay8 (View.ld x0 (.unit _ _ inb_S625x160_S625x160_0_0)))
def m108 : FVec F S1x4 .f32 :=
  k0_pay12 (k0_pay6 (View.ld x0 (.unit _ _ inb_S625x160_S625x160_0_0))) (k0_pay9 (View.ld x0 (.unit _ _ inb_S625x160_S625x160_0_0))) (k0_pay10 (View.ld x0 (.unit _ _ inb_S625x160_S625x160_0_0)))
def m126 : FVec F S4x128 .f32 :=
  k0_pay15 (m105 x0) (m108 x0) k0_pay13 (View.ld x3 (.unit _ _ inb_S1x4_S1x4_0_0)) (View.ld x1 (.unit _ _ inb_S128x4_S128x4_0_0))
def val0_5 : FVec F S5x128 .f32 :=
  k0_pay1 (m126 x0 x1 x3) k0_pay17
    (k0_pay18 (m105 x0) (m108 x0) k0_pay13 (View.ld x3 (.unit _ _ inb_S1x4_S1x4_0_0)) (View.ld x1 (.unit _ _ inb_S128x4_S128x4_0_0)))
    (k0_pay19 (m105 x0) (m108 x0) k0_pay13 (View.ld x3 (.unit _ _ inb_S1x4_S1x4_0_0)) (View.ld x1 (.unit _ _ inb_S128x4_S128x4_0_0)))
    (k0_pay20 (m105 x0) (m108 x0) k0_pay13 (View.ld x3 (.unit _ _ inb_S1x4_S1x4_0_0)) (View.ld x1 (.unit _ _ inb_S128x4_S128x4_0_0)))
    (k0_pay21 (m105 x0) (m108 x0) k0_pay13 (View.ld x3 (.unit _ _ inb_S1x4_S1x4_0_0)) (View.ld x1 (.unit _ _ inb_S128x4_S128x4_0_0)))
    k0_pay22
def val0_6 : FVec F S1x128 .f32 :=
  k0_pay2 (m126 x0 x1 x3)
    (k0_pay16 (m105 x0) (m108 x0) k0_pay13 (View.ld x3 (.unit _ _ inb_S1x4_S1x4_0_0)) (View.ld x4 (.unit _ _ inb_S1x4_S1x4_0_0)) (View.ld x2 (.unit _ _ inb_S1x128_S1x128_0_0)) (View.ld x1 (.unit _ _ inb_S128x4_S128x4_0_0)))

def out0_5 : Vec F S5x128 .f32 := View.canon [⟨r0_5, val0_5 x0 x1 x3⟩]
def out0_6 : Vec F S1x128 .f32 := View.canon [⟨r0_6, val0_6 x0 x1 x2 x3 x4⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 3 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl
theorem after0_5 (c : Dev nD) (t : Fin cfg0.N) :
    (dat0 V c).after 5 t = out0_5 (iblk0 V c 0 t) (iblk0 V c 1 t) (iblk0 V c 3 t) := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) := by dsimp only [dat0]

end Cert.Kernel.Hand

end
-- ==== Proof.K.Reg1Defs.lean ====
import proofs.«145576_g33105607918058_cont_8to1_b_384_29_alg».proof.Proof.Gen.Kernel.Launch
import proofs.«145576_g33105607918058_cont_8to1_b_384_29_alg».proof.Proof.Gen.Kernel.Skeleton
import proofs.«145576_g33105607918058_cont_8to1_b_384_29_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen Idealize.ShloMosaic Idealize.ShloMosaic.TcCoe Idealize.SL.RA Idealize.ShloMosaic.Rounds
open Idealize.ShloMosaic.Pipeline (Dat)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_8 : Rect S1000x1024 := (Rect.unit ![0, 0] S1000x1024.size inb_S1000x1024_S1000x1024_0_0)
abbrev r1_9 : Rect S1x1024 := (Rect.unit ![0, 0] S1x1024.size inb_S1x1024_S1x1024_0_0)

variable (x0 : Vec F S1000x5 .f32) (x1 : Vec F S1000x36 .f32) (x2 : Vec F S1000x2048 .f32) (x3 : Vec F S5x128 .f32) (x4 : Vec F S1x128 .f32) (x5 : Vec F S36x1024 .bf16) (x6 : Vec F S1024x2176 .bf16) (x7 : Vec F S1x1024 .f32)

def zf1 : FVec F S1000x1024 .f32 := k1_pay3 (View.ld x0 (Rect.unit ![0, 0] S1000x5.size inb_S1000x5_S1000x5_0_0)) (View.ld x3 (Rect.unit ![0, 0] S5x128.size inb_S5x128_S5x128_0_0)) (View.ld x4 (Rect.unit ![0, 0] S1x128.size inb_S1x128_S1x128_0_0)) (View.ld x2 (Rect.unit ![0, 0] S1000x2048.size inb_S1000x2048_S1000x2048_0_0)) (View.ld x6 (Rect.unit ![0, 0] S1024x2176.size inb_S1024x2176_S1024x2176_0_0)) (View.ld x1 (Rect.unit ![0, 0] S1000x36.size inb_S1000x36_S1000x36_0_0)) (View.ld x5 (Rect.unit ![0, 0] S36x1024.size inb_S36x1024_S36x1024_0_0)) (View.ld x7 (Rect.unit ![0, 0] S1x1024.size inb_S1x1024_S1x1024_0_0))
def zb1 : FVec F S1000x1024 .bf16 := k1_pay4 (View.ld x0 (Rect.unit ![0, 0] S1000x5.size inb_S1000x5_S1000x5_0_0)) (View.ld x3 (Rect.unit ![0, 0] S5x128.size inb_S5x128_S5x128_0_0)) (View.ld x4 (Rect.unit ![0, 0] S1x128.size inb_S1x128_S1x128_0_0)) (View.ld x2 (Rect.unit ![0, 0] S1000x2048.size inb_S1000x2048_S1000x2048_0_0)) (View.ld x6 (Rect.unit ![0, 0] S1024x2176.size inb_S1024x2176_S1024x2176_0_0)) (View.ld x1 (Rect.unit ![0, 0] S1000x36.size inb_S1000x36_S1000x36_0_0)) (View.ld x5 (Rect.unit ![0, 0] S36x1024.size inb_S36x1024_S36x1024_0_0)) (View.ld x7 (Rect.unit ![0, 0] S1x1024.size inb_S1x1024_S1x1024_0_0))
def zs1 : FVec F S1x1024 .f32 := k1_pay5 (View.ld x0 (Rect.unit ![0, 0] S1000x5.size inb_S1000x5_S1000x5_0_0)) (View.ld x3 (Rect.unit ![0, 0] S5x128.size inb_S5x128_S5x128_0_0)) (View.ld x4 (Rect.unit ![0, 0] S1x128.size inb_S1x128_S1x128_0_0)) (View.ld x2 (Rect.unit ![0, 0] S1000x2048.size inb_S1000x2048_S1000x2048_0_0)) (View.ld x6 (Rect.unit ![0, 0] S1024x2176.size inb_S1024x2176_S1024x2176_0_0)) (View.ld x1 (Rect.unit ![0, 0] S1000x36.size inb_S1000x36_S1000x36_0_0)) (View.ld x5 (Rect.unit ![0, 0] S36x1024.size inb_S36x1024_S36x1024_0_0)) (View.ld x7 (Rect.unit ![0, 0] S1x1024.size inb_S1x1024_S1x1024_0_0))
def zss1 : FVec F S1x1024 .f32 := k1_pay6 (View.ld x0 (Rect.unit ![0, 0] S1000x5.size inb_S1000x5_S1000x5_0_0)) (View.ld x3 (Rect.unit ![0, 0] S5x128.size inb_S5x128_S5x128_0_0)) (View.ld x4 (Rect.unit ![0, 0] S1x128.size inb_S1x128_S1x128_0_0)) (View.ld x2 (Rect.unit ![0, 0] S1000x2048.size inb_S1000x2048_S1000x2048_0_0)) (View.ld x6 (Rect.unit ![0, 0] S1024x2176.size inb_S1024x2176_S1024x2176_0_0)) (View.ld x1 (Rect.unit ![0, 0] S1000x36.size inb_S1000x36_S1000x36_0_0)) (View.ld x5 (Rect.unit ![0, 0] S36x1024.size inb_S36x1024_S36x1024_0_0)) (View.ld x7 (Rect.unit ![0, 0] S1x1024.size inb_S1x1024_S1x1024_0_0))

def out1_8 : Vec F S1000x1024 .bf16 := View.canon [⟨r1_8, zb1 x0 x1 x2 x3 x4 x5 x6 x7⟩]
def out1_9_A : Vec F S1x1024 .f32 := View.canon [⟨r1_9, zs1 x0 x1 x2 x3 x4 x5 x6 x7⟩]
def out1_10_A : Vec F S1x1024 .f32 := View.canon [⟨r1_9, zss1 x0 x1 x2 x3 x4 x5 x6 x7⟩]
def out1_9_B (xo : Vec F S1x1024 .f32) : Vec F S1x1024 .f32 :=
  View.canon [⟨r1_9, k1_pay1 (zs1 x0 x1 x2 x3 x4 x5 x6 x7) (View.ld xo (Rect.unit ![0, 0] S1x1024.size inb_S1x1024_S1x1024_0_0))⟩]
def out1_10_B (xo : Vec F S1x1024 .f32) : Vec F S1x1024 .f32 :=
  View.canon [⟨r1_9, k1_pay2 (zss1 x0 x1 x2 x3 x4 x5 x6 x7) (View.ld xo (Rect.unit ![0, 0] S1x1024.size inb_S1x1024_S1x1024_0_0))⟩]

def acc9 (c : Dev nD) : (n : ℕ) → n < cfg1.N → Vec F S1x1024 .f32
  | 0, hn => out1_9_A (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩)
  | n + 1, hn => out1_9_B (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (acc9 c n (Nat.lt_of_succ_lt hn))
def acc10 (c : Dev nD) : (n : ℕ) → n < cfg1.N → Vec F S1x1024 .f32
  | 0, hn => out1_10_A (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩)
  | n + 1, hn => out1_10_B (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (acc10 c n (Nat.lt_of_succ_lt hn))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => acc9 V c t.val t.isLt
    | ⟨10, _⟩ => acc10 V c t.val t.isLt
  Φ _ := Pipeline.ΦA spec1 c
  q _ := fullShare
  owed _ := 0

theorem A_eq1 (c : Dev nD) (w : Fin cfg1.W) : (dat1 V c).A w = V c (Pipeline.arrRef spec1 w) := rfl
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = acc9 V c t.val t.isLt := rfl
theorem after1_10 (c : Dev nD) (t : Fin cfg1.N) : (dat1 V c).after 10 t = acc10 V c t.val t.isLt := rfl

end Cert.Kernel.Hand

end
-- ==== Proof.K.Reg2Defs.lean ====
import proofs.«145576_g33105607918058_cont_8to1_b_384_29_alg».proof.Proof.Gen.Kernel.Launch
import proofs.«145576_g33105607918058_cont_8to1_b_384_29_alg».proof.Proof.Gen.Kernel.Skeleton
import proofs.«145576_g33105607918058_cont_8to1_b_384_29_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA
open Idealize.ShloMosaic.Pipeline (Dat)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_7 : Rect S1000x37 := .unit _ _ inb_S1000x37_S1000x37_0_0

variable (x0 : Vec F S1000x1024 .bf16) (x1 x2 x3 x4 : Vec F S1x1024 .f32) (x5 : Vec F S37x1024 .bf16) (x6 : Vec F S1x37 .f32)

def val2_7 : FVec F S1000x37 .f32 :=
  k2_pay1 (View.ld x1 (.unit _ _ inb_S1x1024_S1x1024_0_0)) (View.ld x2 (.unit _ _ inb_S1x1024_S1x1024_0_0)) (View.ld x3 (.unit _ _ inb_S1x1024_S1x1024_0_0)) (View.ld x4 (.unit _ _ inb_S1x1024_S1x1024_0_0)) (View.ld x0 (.unit _ _ inb_S1000x1024_S1000x1024_0_0)) (View.ld x5 (.unit _ _ inb_S37x1024_S37x1024_0_0)) (View.ld x6 (.unit _ _ inb_S1x37_S1x37_0_0))
def out2_7 : Vec F S1000x37 .f32 := View.canon [⟨r2_7, val2_7 x0 x1 x2 x3 x4 x5 x6⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

end Cert.Kernel.Hand

end
-- ==== Proof.K.RunDefs.lean ====
import proofs.«145576_g33105607918058_cont_8to1_b_384_29_alg».proof.Proof.K.Reg0Defs
import proofs.«145576_g33105607918058_cont_8to1_b_384_29_alg».proof.Proof.K.Reg1Defs
import proofs.«145576_g33105607918058_cont_8to1_b_384_29_alg».proof.Proof.K.Reg2Defs

noncomputable section

namespace Cert.Kernel.Hand

open Cert.Kernel Cert.Kernel.Gen Idealize.ShloMosaic Idealize.ShloMosaic.TcCoe

variable {F : FTy → Type} [FloatOps F] (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
abbrev W3 (c : Dev nD) : Valuation τ sig (Elt F) := StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
abbrev W5 (c : Dev nD) : Valuation τ sig (Elt F) := StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N

end Cert.Kernel.Hand

end
-- ==== Proof.K.Run.lean ====
import proofs.«145576_g33105607918058_cont_8to1_b_384_29_alg».proof.Proof.K.RunDefs

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev heldAt (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

def reg (p : Fin 3) (la : Pipeline.LaunchFacts (nD := nD) (τ := τ) cfgs p)
    (hb : ∀ c : Dev nD, BodyObligation (pdats m p c) (defs₀ (F := F)) Variants.none () Set.univ)
    (W : Dev nD → Valuation τ sig (Elt F))
    (hA : ∀ c w, (pdats m p c).A w = W c (Pipeline.arrRef (cfgs p).spec w))
    (hq : ∀ c w, (pdats m p c).q w = fullShare) (howed : ∀ c t, (pdats m p c).owed t = 0)
    (hrec : ∀ c t, (pdats m p c).recorded t = Set.univ) (hΦ : ∀ c t, (pdats m p c).Φ t = Pipeline.ΦA (cfgs p).spec c) :
    Pipeline.RegionSeg (pcfgs (F := F)) adm (pdats m) () defs₀ Variants.none L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p howed
  pre := heldAt W
  post := heldAt fun c => Pipeline.withArrays (cfgs p).spec c (W c) ((pdats m p c).arrAt · (cfgs p).N)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]; unfold Pipeline.Dat.owesAt Pipeline.Dat.bound; rw [howed, hrec]
    have hsplit := Pipeline.arrays_of_unscopedBufs (pcfgs (F := F)) adm (pdats m) la.win la.arr_whole c
      ((pdats m p c).share_full (hq c)) (fun b => W c b) (hA c)
    rw [Pipeline.unscopedBufs_held] at hsplit
    iintro ⟨⟨Hbufs, Hreg, Howes⟩, -, -⟩
    ihave Hsp := hsplit $$ Hbufs
    icases Hsp with ⟨Harr, Hrest⟩
    imodintro
    iframe Harr Hreg Hrest
    isplitr; · unfold Pipeline.prefHeld; rw [show (Finset.univ : Finset (Fin 0)) = ∅ from rfl, BI.bigSep_empty]; iempintro
    icases Howes with ⟨%W', Howes⟩; iexists W'; isplitr; · ipureintro; exact fun _ _ => Or.inl trivial
    iexact Howes
  hin c := by
    rw [hΦ]; unfold Pipeline.ΦA
    iintro ⟨Hreg, -, Hsc⟩; iframe
  hout c := by
    rw [Pipeline.ownSems0_none, hΦ]; unfold Pipeline.ΦA
    iintro ⟨Hsc, Hreg⟩; iframe; iempintro
  hexit c := by
    unfold Pipeline.Dat.owesAt; rw [howed]
    have hjoin := Pipeline.unscopedBufs_of_arrays (p := p) (pcfgs (F := F)) adm (Ix := Unit) (Name := ℕ) (U := UR sig nD τ) (Lvl := ℕ)
      la.win la.arr_whole c (pdats m) ((pdats m p c).share_full (hq c)) (fun b => W c b)
      (fun b => Pipeline.withArrays (cfgs p).spec c (W c) ((pdats m p c).arrAt · (cfgs p).N) b) _
      (fun w => (Pipeline.withArrays_arr (cfgs p).spec la.win.arr_inj c (W c) ((pdats m p c).arrAt · (cfgs p).N) w).symm)
      fun b hb => Pipeline.withArrays_of_ne (cfgs p).spec c (W c) ((pdats m p c).arrAt · (cfgs p).N) b fun w e =>
        hb (Finset.mem_image.mpr ⟨w, Finset.mem_univ _, e⟩)
    rw [Pipeline.unscopedBufs_held] at hjoin
    iintro ⟨Harr, Howes, Hreg, Hrest⟩
    imodintro
    isplitl [Harr Hrest]
    · iapply hjoin; iframe
    isplitl [Hreg]; · iexact Hreg
    icases Howes with ⟨%W', -, Howes⟩; iexists W'; iexact Howes

abbrev segs (hb : ∀ p (c : Dev nD), BodyObligation (pdats m p c) (defs₀ (F := F)) Variants.none () Set.univ) :
    List (Pipeline.Seg (pcfgs (F := F)) adm (pdats m) () defs₀ Variants.none L lv) :=
  [ .host (hseg hostOps0 hostOps0_sub (W0 m)),
    .region (reg m 0 launch0 (hb 0) (W1 m) (fun _ _ => rfl) (fun _ _ => rfl) (fun _ _ => rfl) (fun _ _ => rfl) fun _ _ => rfl),
    .host (hseg hostOps1 hostOps1_sub (W2 m)),
    .region (reg m 1 launch1 (hb 1) (W3 m) (fun _ _ => rfl) (fun _ _ => rfl) (fun _ _ => rfl) (fun _ _ => rfl) fun _ _ => rfl),
    .host (hseg hostOps2 hostOps2_sub (W4 m)),
    .region (reg m 2 launch2 (hb 2) (W5 m) (fun _ _ => rfl) (fun _ _ => rfl) (fun _ _ => rfl) (fun _ _ => rfl) fun _ _ => rfl) ]

set_option backward.isDefEq.respectTransparency.types false in
theorem run_all (ρ : Dev nD → PrngReg)
    (hb : ∀ p (c : Dev nD), BodyObligation (pdats m p c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ Variants.none L lv m ρ main (segs m hb)
    (fun c Q => by rw [show main (F := F) c = Pipeline.Seg.run (segs m hb) from (main_chain c).trans (by chain_rfl)])
    (by simp only [segs, Pipeline.Seg.pipes_host, Pipeline.Seg.pipes_region, Pipeline.Seg.pipes_nil]; decide)
    (O₀ := 0) (hL := fun _ _ => rfl) (G := fun _ => BI.emp)
    (u₀ := Rounds.initOf (Pipeline.cells cfgs cellOf_inj) (Pipeline.launchToks cfgs cellOf_inj))
    (hu₀ := by rw [BI.bigSep_emp_const]; exact sep_emp.2.trans fupd_intro)
    (T₀ := heldAt (W0 m)) (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W6 m c b)
    (hfin := fun c s' => by
      iintro ⟨⟨Hbufs, -⟩, HSI⟩
      unfold StableHlo.held
      imodintro
      iapply (pointsTo_read_all (Pipeline.ucRefs τ sig) (fun b => (((c : Thread nD τ)).1, b)) (W6 m c) s')
      isplitl [Hbufs] <;> iassumption)
    (hQ := fun s h c => h c)

end Cert.Kernel.Hand

end
-- ==== Proof.K.Glue.lean ====
import proofs.«145576_g33105607918058_cont_8to1_b_384_29_alg».proof.Proof.K.RunDefs
import proofs.«145576_g33105607918058_cont_8to1_b_384_29_alg».proof.Proof.Gen.Kernel.Regions

namespace Cert.Kernel.Hand

open Cert.Kernel Cert.Kernel.Gen Idealize.ShloMosaic Idealize.ShloMosaic.TcCoe

variable {F : FTy → Type} [FloatOps F] (m : (ℓ : Loc nD τ sig) → Buf (Elt F) ℓ)

theorem withArrays_keep {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (o : Fin W → Bool) (hin : ∀ w, o w = false → A w = V (Proc.devRef .tc (Pipeline.arrRef win w)))
    (b : Ref sig .tc) (hb : ∀ w, o w = true → Pipeline.arrRef win w ≠ b) :
    Pipeline.withArrays win c V A (Proc.devRef .tc b) = V (Proc.devRef .tc b) := by
  by_cases h : ∃ w, Pipeline.arrRef win w = b
  · obtain ⟨w, rfl⟩ := h
    rw [Pipeline.withArrays_arr win hinj]
    cases hw : o w
    · exact hin w hw
    · exact absurd rfl (hb w hw)
  · exact Pipeline.withArrays_of_ne win c V A b fun w e => h ⟨w, e⟩

theorem W2_keep (c : Dev nD) (b : Ref sig .tc) (hb : ∀ w, (cfg0.win w).isOut = true → Pipeline.arrRef spec0 w ≠ b) :
    W2 m c (Proc.devRef .tc b) = W1 m c (Proc.devRef .tc b) :=
  withArrays_keep spec0 launch0.win.arr_inj c _ _ _ (fun w h => ((dat0 (V1 m) c).arrAt_in w h _).trans (A_eq0 (V1 m) c w)) b hb
theorem W4_keep (c : Dev nD) (b : Ref sig .tc) (hb : ∀ w, (cfg1.win w).isOut = true → Pipeline.arrRef spec1 w ≠ b) :
    W4 m c (Proc.devRef .tc b) = W3 m c (Proc.devRef .tc b) :=
  withArrays_keep spec1 launch1.win.arr_inj c _ _ _ (fun w h => ((dat1 (V3 m) c).arrAt_in w h _).trans (A_eq1 (V3 m) c w)) b hb
theorem W6_keep (c : Dev nD) (b : Ref sig .tc) (hb : ∀ w, (cfg2.win w).isOut = true → Pipeline.arrRef spec2 w ≠ b) :
    W6 m c (Proc.devRef .tc b) = W5 m c (Proc.devRef .tc b) :=
  withArrays_keep spec2 launch2.win.arr_inj c _ _ _ (fun w h => ((dat2 (V5 m) c).arrAt_in w h _).trans (A_eq2 (V5 m) c w)) b hb

private theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
private theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h

-- No host operation writes `r` and `r` is no region's output array: it holds the launch memory at every boundary.
abbrev Kept (r : Ref sig .tc) : Prop :=
  r ∉ hostOps0_W ∧ (∀ w, (cfg0.win w).isOut = true → Pipeline.arrRef spec0 w ≠ r) ∧ r ∉ hostOps1_W ∧
  (∀ w, (cfg1.win w).isOut = true → Pipeline.arrRef spec1 w ≠ r) ∧ r ∉ hostOps2_W ∧
  ∀ w, (cfg2.win w).isOut = true → Pipeline.arrRef spec2 w ≠ r

variable (c : Dev nD) (r : Ref sig .tc) (h : Kept r)
include h
theorem W2_launch : W2 m c (Proc.devRef .tc r) = m ((c : Thread nD τ).loc r) := (W2_keep m c r h.2.1).trans (W1_of m c r h.1)
theorem W3_launch : W3 m c (Proc.devRef .tc r) = m ((c : Thread nD τ).loc r) := (W3_of m c r h.2.2.1).trans (W2_launch m c r h)
theorem W4_launch : W4 m c (Proc.devRef .tc r) = m ((c : Thread nD τ).loc r) := (W4_keep m c r h.2.2.2.1).trans (W3_launch m c r h)
theorem W6_launch : W6 m c (Proc.devRef .tc r) = m ((c : Thread nD τ).loc r) :=
  (W6_keep m c r h.2.2.2.2.2).trans ((W5_of m c r h.2.2.2.2.1).trans (W4_launch m c r h))
omit h

theorem W6_v19 : W6 m c (Proc.devRef .tc main_v19) = (dat2 (V5 m) c).arrAt 7 cfg2.N :=
  Pipeline.withArrays_arr spec2 launch2.win.arr_inj c _ _ 7

theorem V5_v15_0 : V5 m c main_v15_0 = (dat1 (V3 m) c).arrAt 8 cfg1.N :=
  (W5_of m c main_v15_0 (by decide)).trans (W4_arr m c 8)
theorem V5_v15_1 : V5 m c main_v15_1 = (dat1 (V3 m) c).arrAt 9 cfg1.N :=
  (W5_of m c main_v15_1 (by decide)).trans (W4_arr m c 9)
theorem V5_v15_2 : V5 m c main_v15_2 = (dat1 (V3 m) c).arrAt 10 cfg1.N :=
  (W5_of m c main_v15_2 (by decide)).trans (W4_arr m c 10)
theorem V5_v16 : V5 m c main_v16 = broadcastInDim S1x1024 ![1] bcast_S1024_S1x1024_1 (m ((c : Thread nD τ).loc main_arg11)) := by
  show StableHlo.after _ _ _ = _; after_results; rw [W4_launch m c main_arg11 (by decide)]
theorem V5_v17 : V5 m c main_v17 = broadcastInDim S1x1024 ![1] bcast_S1024_S1x1024_1 (m ((c : Thread nD τ).loc main_arg12)) := by
  show StableHlo.after _ _ _ = _; after_results; rw [W4_launch m c main_arg12 (by decide)]
theorem V5_v18 : V5 m c main_v18 = broadcastInDim S1x37 ![1] bcast_S37_S1x37_1 (m ((c : Thread nD τ).loc main_arg14)) := by
  show StableHlo.after _ _ _ = _; after_results; rw [W4_launch m c main_arg14 (by decide)]
theorem V3_v13 : V3 m c main_v13 = truncf .bf16 (m ((c : Thread nD τ).loc main_arg13)) bitsLt_bf16_f32 := by
  show StableHlo.after _ _ _ = _; after_results; rw [W2_launch m c main_arg13 (by decide)]
theorem V5_v13 : V5 m c main_v13 = truncf .bf16 (m ((c : Thread nD τ).loc main_arg13)) bitsLt_bf16_f32 :=
  (W5_of m c main_v13 (by decide)).trans ((W4_keep m c main_v13 (by decide)).trans (V3_v13 m c))

theorem V3_arg0 : V3 m c main_arg0 = m ((c : Thread nD τ).loc main_arg0) := W3_launch m c main_arg0 (by decide)
theorem V3_arg1 : V3 m c main_arg1 = m ((c : Thread nD τ).loc main_arg1) := W3_launch m c main_arg1 (by decide)
theorem V3_arg2 : V3 m c main_arg2 = m ((c : Thread nD τ).loc main_arg2) := W3_launch m c main_arg2 (by decide)
theorem V3_v4_0 : V3 m c main_v4_0 = (dat0 (V1 m) c).arrAt 5 cfg0.N :=
  (W3_of m c main_v4_0 (by decide)).trans (W2_arr m c 5)
theorem V3_v4_1 : V3 m c main_v4_1 = (dat0 (V1 m) c).arrAt 6 cfg0.N :=
  (W3_of m c main_v4_1 (by decide)).trans (W2_arr m c 6)
theorem V3_v12 : V3 m c main_v12 = truncf .bf16 (Host.dotGeneral dot_S36x200_S200x1024_S36x1024_1_0_0_1_n_n none (m ((c : Thread nD τ).loc main_arg4))
      (transpose S200x1024 [1, 0] (extractStridedSlice S1024x200 ![0, 2048] (m ((c : Thread nD τ).loc main_arg9)) slices_S1024x2376_S1024x200_0_2048) transposes_S1024x200_S200x1024_1_0)) bitsLt_bf16_f32 := by
  show StableHlo.after _ _ _ = _; after_results
  rw [W2_launch m c main_arg4 (by decide), W2_launch m c main_arg9 (by decide)]
theorem V3_v8 : V3 m c main_v8 = truncf .bf16 (concatenate S1024x2176 1
      [⟨S1024x2048, extractStridedSlice S1024x2048 ![0, 0] (m ((c : Thread nD τ).loc main_arg9)) slices_S1024x2376_S1024x2048_0_0⟩,
       ⟨S1024x128, extractStridedSlice S1024x128 ![0, 2248] (m ((c : Thread nD τ).loc main_arg9)) slices_S1024x2376_S1024x128_0_2248⟩]
      concatenates_S1024x2048_S1024x128_S1024x2176_d1) bitsLt_bf16_f32 := by
  show StableHlo.after _ _ _ = _; after_results; rw [W2_launch m c main_arg9 (by decide)]
theorem V3_v14 : V3 m c main_v14 = broadcastInDim S1x1024 ![1] bcast_S1024_S1x1024_1 (m ((c : Thread nD τ).loc main_arg10)) := by
  show StableHlo.after _ _ _ = _; after_results; rw [W2_launch m c main_arg10 (by decide)]

theorem V1_v0 : V1 m c main_v0 = shapeCast S625x160 (m ((c : Thread nD τ).loc main_arg1)) shapeCasts_S20000x5_S625x160 := by
  show StableHlo.after _ _ _ = _; after_results; rfl
theorem V1_arg7 : V1 m c main_arg7 = m ((c : Thread nD τ).loc main_arg7) := W1_of m c main_arg7 (by decide)
theorem V1_v1 : V1 m c main_v1 = broadcastInDim S1x128 ![1] bcast_S128_S1x128_1 (m ((c : Thread nD τ).loc main_arg8)) := by
  show StableHlo.after _ _ _ = _; after_results
theorem V1_v2 : V1 m c main_v2 = broadcastInDim S1x4 ![1] bcast_S4_S1x4_1 (m ((c : Thread nD τ).loc main_arg5)) := by
  show StableHlo.after _ _ _ = _; after_results
theorem V1_v3 : V1 m c main_v3 = broadcastInDim S1x4 ![1] bcast_S4_S1x4_1 (m ((c : Thread nD τ).loc main_arg6)) := by
  show StableHlo.after _ _ _ = _; after_results

end Cert.Kernel.Hand
-- ==== Proof.K.Reg0Body.lean ====
import proofs.«145576_g33105607918058_cont_8to1_b_384_29_alg».proof.Proof.K.Reg0Defs

noncomputable section

namespace Cert.Kernel.Hand

open Cert.Kernel Cert.Kernel.Gen
open Idealize.ShloMosaic Idealize.ShloMosaic.TcCoe
open Idealize.ShloMosaic.Pipeline (Dat BodyObligation)

variable {F : FTy → Type} [FloatOps F]

variable (V : (c : Dev nD) → (b : Ref sig .tc) → Buf (Elt F) ((c : Thread nD τ).loc b))

theorem before0 (c : Dev nD) (t : Fin cfg0.N) :
    ∀ w : Fin cfg0.W, w.val < 5 → ∀ d, (dat0 V c).before w t d = (dat0 V c).after w t
  | ⟨0, _⟩, _, d | ⟨1, _⟩, _, d | ⟨2, _⟩, _, d | ⟨3, _⟩, _, d | ⟨4, _⟩, _, d =>
    (Dat.before_in_eq_fetched _ _ rfl (fun _ => rfl) (fun _ _ _ => rfl) (fun _ => rfl) t d).trans rfl
  | ⟨5, _⟩, h, _ | ⟨6, _⟩, h, _ => absurd h (by simp)

theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).after 5 t = out0_5 ((dat0 V c).after 0 t) ((dat0 V c).after 1 t) ((dat0 V c).after 3 t) from after0_5 V c t,
    show (dat0 V c).after 6 t = out0_6 ((dat0 V c).after 0 t) ((dat0 V c).after 1 t) ((dat0 V c).after 2 t) ((dat0 V c).after 3 t) ((dat0 V c).after 4 t) from after0_6 V c t]
  simp (disch := decide) only [before0 V]
  generalize (dat0 V c).after 0 t = x0, (dat0 V c).after 1 t = x1, (dat0 V c).after 2 t = x2, (dat0 V c).after 3 t = x3, (dat0 V c).after 4 t = x4
  sl_whnfR [defs₀, Defs.onTc]
  simp only [cc0__stats_kernel_eq_skeleton]; unfold cc0__stats_kernel_skel owns
  iintro ⟨HΦ, Ho, ⟨%_, %f0, %e0, H0⟩, ⟨%_, %f1, %e1, H1⟩, ⟨%_, %f2, %e2, H2⟩, ⟨%_, %f3, %e3, H3⟩, ⟨%_, %f4, %e4, H4⟩, ⟨%_, %f5, -, H5⟩, ⟨%_, %f6, -, H6⟩⟩
  subst e0 e1 e2 e3 e4
  sl_exec
  sl_step
  iframe HΦ
  isplitl [Ho]; · iexact Ho
  isplitl [H0]; · iexists _; iframe; ipureintro; rfl
  isplitl [H1]; · iexists _; iframe; ipureintro; rfl
  isplitl [H2]; · iexists _; iframe; ipureintro; rfl
  isplitl [H3]; · iexists _; iframe; ipureintro; rfl
  isplitl [H4]; · iexists _; iframe; ipureintro; rfl
  isplitl [H5] <;> iexists _ <;> iframe <;> ipureintro <;>
    exact View.read_writes_eq_canon _ _ _ (View.cover_of_tiled _ (Shape.size _) (by rfl))

end Cert.Kernel.Hand

end
-- ==== Proof.K.Reg1Body.lean ====
import proofs.«145576_g33105607918058_cont_8to1_b_384_29_alg».proof.Proof.K.Reg1Defs

namespace Cert.Kernel.Hand

open Cert.Kernel.Gen Idealize.ShloMosaic Idealize.ShloMosaic.TcCoe Idealize.SL Idealize.SL.RA Idealize.SL.BI Idealize.SL.BI.BIBase Idealize.SL.Sem Idealize.ShloMosaic.Rounds
open Idealize.ShloMosaic.Pipeline (Dat BodyObligation)

variable {F : FTy → Type} [FloatOps F]

variable (V : (c : Dev nD) → (b : Ref sig .tc) → Buf (Elt F) ((c : Thread nD τ).loc b))

-- the first condition holds at the first point only, the second at every later point
theorem hcond1 : ∀ t : Fin cfg1.N, (k1_cond1 (grid1.coords t) = 1#1 ↔ t.val = 0) ∧ (k1_cond2 (grid1.coords t) = 1#1 ↔ t.val ≠ 0) := by
  decide +kernel

theorem live1 : ∀ (w : Fin cfg1.W) (i : grid1.Coords), cfg1.idle w i = false := by decide +kernel

theorem inputs1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) ∧ (∀ d, (dat1 V c).before 7 t d = iblk1 V c 7 t) := by
  refine ⟨?_, ?_, ?_, ?_, ?_, ?_, ?_, ?_⟩ <;>
    exact fun d => ((dat1 V c).before_in_eq_fetched _ rfl (live1 _) (fun _ _ _ => rfl) (fun _ => rfl) t d).trans rfl

theorem before1_acc (c : Dev nD) (t : Fin cfg1.N) (h0 : t.val ≠ 0) (d9 d10) :
    (dat1 V c).before 9 t d9 = acc9 V c (t.val - 1) (Nat.lt_of_le_of_lt (Nat.sub_le _ _) t.isLt)
      ∧ (dat1 V c).before 10 t d10 = acc10 V c (t.val - 1) (Nat.lt_of_le_of_lt (Nat.sub_le _ _) t.isLt) := by
  have hN : t.val < 20 := lt_of_lt_of_eq t.isLt (show cfg1.N = 20 from N_1)
  constructor <;> refine Dat.before_out_kept _ _ rfl t h0 (Bool.eq_false_iff.mpr fun h => ?_) (live1 _) (fun _ _ => rfl) _
  · have := (flush1_9 _).mp h; dsimp only at this; omega
  · have := (flush1_10 _).mp h; dsimp only at this; omega

variable (x0 : Vec F S1000x5 .f32) (x1 : Vec F S1000x36 .f32) (x2 : Vec F S1000x2048 .f32) (x3 : Vec F S5x128 .f32) (x4 : Vec F S1x128 .f32) (x5 : Vec F S36x1024 .bf16) (x6 : Vec F S1024x2176 .bf16) (x7 : Vec F S1x1024 .f32)

-- the two cases: which condition holds, and the running sums set to this block's sums or increased by them
def Case1 (i : grid1.Coords) (xo9 xo10 o9 o10 : Vec F S1x1024 .f32) : Prop :=
  k1_cond1 i = 1#1 ∧ ¬ k1_cond2 i = 1#1 ∧ o9 = out1_9_A x0 x1 x2 x3 x4 x5 x6 x7 ∧ o10 = out1_10_A x0 x1 x2 x3 x4 x5 x6 x7
    ∨ ¬ k1_cond1 i = 1#1 ∧ k1_cond2 i = 1#1 ∧ o9 = out1_9_B x0 x1 x2 x3 x4 x5 x6 x7 xo9 ∧ o10 = out1_10_B x0 x1 x2 x3 x4 x5 x6 x7 xo10

theorem sound_kernel1 (c : Dev nD) (E : Set ℕ) (i : grid1.Coords) (arg1 : Memref sig .tc .vmem S1000x5 .f32) (harg1 : arg1.IsWhole) (arg2 : Memref sig .tc .vmem S1000x36 .f32) (harg2 : arg2.IsWhole) (arg3 : Memref sig .tc .vmem S1000x2048 .f32) (harg3 : arg3.IsWhole) (arg4 : Memref sig .tc .vmem S5x128 .f32) (harg4 : arg4.IsWhole) (arg5 : Memref sig .tc .vmem S1x128 .f32) (harg5 : arg5.IsWhole) (arg6 : Memref sig .tc .vmem S36x1024 .bf16) (harg6 : arg6.IsWhole) (arg7 : Memref sig .tc .vmem S1024x2176 .bf16) (harg7 : arg7.IsWhole) (arg8 : Memref sig .tc .vmem S1x1024 .f32) (harg8 : arg8.IsWhole) (arg9 : Memref sig .tc .vmem S1000x1024 .bf16) (harg9 : arg9.IsWhole) (arg10 : Memref sig .tc .vmem S1x1024 .f32) (harg10 : arg10.IsWhole) (arg11 : Memref sig .tc .vmem S1x1024 .f32) (harg11 : arg11.IsWhole)
    (xo9 xo10 o9 o10 : Vec F S1x1024 .f32) (h : Case1 x0 x1 x2 x3 x4 x5 x6 x7 i xo9 xo10 o9 o10) (K : PUnit → sProp (MT nD τ sig Unit (Elt F) ℕ (UR sig nD τ) ℕ)) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7
        ∗ (∃ d, owns c.tc arg9 fullShare d) ∗ owns c.tc arg10 fullShare xo9 ∗ owns c.tc arg11 fullShare xo10
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7
            ∗ owns c.tc arg9 fullShare (out1_8 x0 x1 x2 x3 x4 x5 x6 x7) ∗ owns c.tc arg10 fullShare o9 ∗ owns c.tc arg11 fullShare o10) -∗ K ⟨⟩))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11) K := by
  sl_unfold [cc1__main_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf0 hf1 hf2 hf3 hf4 hf5 hf6 hf7 hf9 hf10
  rcases h with ⟨hc1, hc2, rfl, rfl⟩ | ⟨hc1, hc2, rfl, rfl⟩ <;> (
    sl_exec (disch := first | sl_exact hc1 | sl_exact hc2)
    sl_step
    iapply Hk
    isplitl [H0]; · istop; exact owns_intro _ _ _ f0
    isplitl [H1]; · istop; exact owns_intro _ _ _ f1
    isplitl [H2]; · istop; exact owns_intro _ _ _ f2
    isplitl [H3]; · istop; exact owns_intro _ _ _ f3
    isplitl [H4]; · istop; exact owns_intro _ _ _ f4
    isplitl [H5]; · istop; exact owns_intro _ _ _ f5
    isplitl [H6]; · istop; exact owns_intro _ _ _ f6
    isplitl [H7]; · istop; exact owns_intro _ _ _ f7
    isplitl [H8]; · iexists _; isplitr; swap; · iexact H8
                    ipureintro; exact View.read_writes_eq_canon _ _ _ (View.cover_of_tiled _ S1000x1024.size (by rfl))
    isplitl [H9] <;> (iexists _; isplitr; swap; · iassumption
                      ipureintro; exact View.read_writes_eq_canon _ _ _ (View.cover_of_tiled _ S1x1024.size (by rfl))))

-- the first point is in the first case; a later point is in the second, over the running sums of the point before
theorem case1_at (c : Dev nD) (t : Fin cfg1.N) (d9 d10) :
    Case1 (iblk1 V c 0 t) (iblk1 V c 1 t) (iblk1 V c 2 t) (iblk1 V c 3 t) (iblk1 V c 4 t) (iblk1 V c 5 t) (iblk1 V c 6 t) (iblk1 V c 7 t) (grid1.coords t) ((dat1 V c).before 9 t d9) ((dat1 V c).before 10 t d10) ((dat1 V c).after 9 t) ((dat1 V c).after 10 t) := by
  obtain ⟨h1, h2⟩ := hcond1 t
  obtain ⟨_ | n, hn⟩ := t
  · exact .inl ⟨h1.2 rfl, fun h => h2.1 h rfl, (after1_9 V c _).trans rfl, (after1_10 V c _).trans rfl⟩
  · obtain ⟨e9, e10⟩ := before1_acc V c ⟨n + 1, hn⟩ n.succ_ne_zero d9 d10
    exact .inr ⟨fun h => n.succ_ne_zero (h1.1 h), h2.2 n.succ_ne_zero, by rw [e9, after1_9]; rfl, by rw [e10, after1_10]; rfl⟩

theorem body_obligation1 (c : Dev nD) : BodyObligation (dat1 (F := F) V c) (defs₀ (F := F)) Variants.none () Set.univ := fun t => by
  rw [bigSep_W1, bigSep_W1, live1 9]
  sl_whnfR [defs₀, Defs.onTc]
  simp only [inputs1 V c t, after1_8]
  rw [show (dat1 V c).Φ t.succ = (dat1 V c).Φ t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 (iblk1 V c 0 t) (iblk1 V c 1 t) (iblk1 V c 2 t) (iblk1 V c 3 t) (iblk1 V c 4 t) (iblk1 V c 5 t) (iblk1 V c 6 t) (iblk1 V c 7 t) c Set.univ (grid1.coords t) _ _ _ _ _ _ _ _ _ _ _ _ _ _ _ _ _ _ _ _ _ _ _ _ _ _ (case1_at V c t d9 d10) _)
  iframe H0 H1 H2 H3 H4 H5 H6 H7 H9 H10
  isplitl [H8]; · iexists _; iexact H8
  iintro HW
  isplitl [HΦ]; · iexact HΦ
  isplitl [Ho]; · iexact Ho
  iexact HW

end Cert.Kernel.Hand
-- ==== Proof.K.Reg2Body.lean ====
import proofs.«145576_g33105607918058_cont_8to1_b_384_29_alg».proof.Proof.K.Reg2Defs

noncomputable section

namespace Cert.Kernel.Hand

open Cert.Kernel Cert.Kernel.Gen
open Idealize.ShloMosaic Idealize.ShloMosaic.TcCoe
open Idealize.ShloMosaic.Pipeline (Dat BodyObligation)

variable {F : FTy → Type} [FloatOps F]

variable (V : (c : Dev nD) → (b : Ref sig .tc) → Buf (Elt F) ((c : Thread nD τ).loc b))

theorem before2 (c : Dev nD) (t : Fin cfg2.N) :
    ∀ w : Fin cfg2.W, w.val < 7 → ∀ d, (dat2 V c).before w t d = (dat2 V c).after w t
  | ⟨0, _⟩, _, d | ⟨1, _⟩, _, d | ⟨2, _⟩, _, d | ⟨3, _⟩, _, d | ⟨4, _⟩, _, d | ⟨5, _⟩, _, d | ⟨6, _⟩, _, d =>
    (Dat.before_in_eq_fetched _ _ rfl (fun _ => rfl) (fun _ _ _ => rfl) (fun _ => rfl) t d).trans rfl
  | ⟨7, _⟩, h, _ => absurd h (by simp)

theorem body_obligation2 (c : Dev nD) : BodyObligation (dat2 (F := F) V c) (defs₀ (F := F)) Variants.none () Set.univ := fun t => by
  rw [bigSep_W2, bigSep_W2, show (dat2 V c).Φ t.succ = (dat2 V c).Φ t.castSucc from rfl,
    show (dat2 V c).after 7 t = out2_7 ((dat2 V c).after 0 t) ((dat2 V c).after 1 t) ((dat2 V c).after 2 t) ((dat2 V c).after 3 t) ((dat2 V c).after 4 t) ((dat2 V c).after 5 t) ((dat2 V c).after 6 t) from after2_7 V c t]
  simp (disch := decide) only [before2 V]
  generalize (dat2 V c).after 0 t = x0, (dat2 V c).after 1 t = x1, (dat2 V c).after 2 t = x2, (dat2 V c).after 3 t = x3, (dat2 V c).after 4 t = x4, (dat2 V c).after 5 t = x5, (dat2 V c).after 6 t = x6
  sl_whnfR [defs₀, Defs.onTc]
  simp only [cc2__finish_kernel_eq_skeleton]; unfold cc2__finish_kernel_skel owns
  iintro ⟨HΦ, Ho, ⟨%_, %f0, %e0, H0⟩, ⟨%_, %f1, %e1, H1⟩, ⟨%_, %f2, %e2, H2⟩, ⟨%_, %f3, %e3, H3⟩, ⟨%_, %f4, %e4, H4⟩, ⟨%_, %f5, %e5, H5⟩, ⟨%_, %f6, %e6, H6⟩, ⟨%_, %f7, -, H7⟩⟩
  subst e0 e1 e2 e3 e4 e5 e6
  sl_exec
  sl_step
  iframe HΦ
  isplitl [Ho]; · iexact Ho
  isplitl [H0]; · iexists _; iframe; ipureintro; rfl
  isplitl [H1]; · iexists _; iframe; ipureintro; rfl
  isplitl [H2]; · iexists _; iframe; ipureintro; rfl
  isplitl [H3]; · iexists _; iframe; ipureintro; rfl
  isplitl [H4]; · iexists _; iframe; ipureintro; rfl
  isplitl [H5]; · iexists _; iframe; ipureintro; rfl
  isplitl [H6]; · iexists _; iframe; ipureintro; rfl
  iexists _; iframe; ipureintro
  exact View.read_writes_eq_canon _ _ _ (View.cover_of_tiled _ (Shape.size _) (by rfl))

end Cert.Kernel.Hand

end
-- ==== Proof.K.Frame.lean ====
import proofs.«145576_g33105607918058_cont_8to1_b_384_29_alg».proof.Proof.K.Run
import proofs.«145576_g33105607918058_cont_8to1_b_384_29_alg».proof.Proof.K.Glue
import proofs.«145576_g33105607918058_cont_8to1_b_384_29_alg».proof.Proof.K.Reg0Body
import proofs.«145576_g33105607918058_cont_8to1_b_384_29_alg».proof.Proof.K.Reg1Body
import proofs.«145576_g33105607918058_cont_8to1_b_384_29_alg».proof.Proof.K.Reg2Body

namespace Cert.Kernel.Hand

open Cert.Kernel Cert.Kernel.Gen Idealize.ShloMosaic Idealize.ShloMosaic.TcCoe

variable {F : FTy → Type} [FloatOps F] (m : (ℓ : Loc nD τ sig) → Buf (Elt F) ℓ)

theorem run_final (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m c b) :=
  run_all m ρ fun | 0 => body_obligation0 (V1 m) | 1 => body_obligation1 (V3 m) | 2 => body_obligation2 (V5 m)

-- Nothing writes an argument array, so it is read back off the last contents as launched.
theorem run_value (ρ : Dev nD → PrngReg) :
    θ_run defs (onTc (τ := τ) (main (F := F))) ⟨m, fun _ => 0, ρ⟩ (fun r => ∀ c : Dev nD,
      r.2.mem ((c.tc : Thread nD τ).loc main_v19) = W6 m c (Proc.devRef .tc main_v19)
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    refine ⟨h c _ (mem_uc main_v19 (by decide)), ?_, ?_, ?_, ?_, ?_, ?_, ?_, ?_, ?_, ?_, ?_, ?_, ?_, ?_, ?_, ?_⟩ <;>
      exact (h c _ (mem_uc _ (by decide))).trans (W6_launch m c _ (by decide))) (run_final m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2.2) (run_value m ρ)

end Cert.Kernel.Hand
-- ==== Proof.KI.Reg0Defs.lean ====
import proofs.«145576_g33105607918058_cont_8to1_b_384_29_alg».proof.Proof.Gen.KernelIdeal.Launch
import proofs.«145576_g33105607918058_cont_8to1_b_384_29_alg».proof.Proof.Gen.KernelIdeal.Skeleton
import proofs.«145576_g33105607918058_cont_8to1_b_384_29_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_5 : Rect S5x128 := .unit _ _ inb_S5x128_S5x128_0_0
abbrev r0_6 : Rect S1x128 := .unit _ _ inb_S1x128_S1x128_0_0

variable (x0 : Vec F S625x160 .f32) (x1 : Vec F S128x4 .f32) (x2 : Vec F S1x128 .f32) (x3 x4 : Vec F S1x4 .f32)

def m105 : FVec F S1x4 .f32 :=
  k0_pay11 (k0_pay7 (View.ld x0 (.unit _ _ inb_S625x160_S625x160_0_0))) (k0_pay8 (View.ld x0 (.unit _ _ inb_S625x160_S625x160_0_0)))
def m108 : FVec F S1x4 .f32 :=
  k0_pay12 (k0_pay6 (View.ld x0 (.unit _ _ inb_S625x160_S625x160_0_0))) (k0_pay9 (View.ld x0 (.unit _ _ inb_S625x160_S625x160_0_0))) (k0_pay10 (View.ld x0 (.unit _ _ inb_S625x160_S625x160_0_0)))
def m126 : FVec F S4x128 .f32 :=
  k0_pay15 (m105 x0) (m108 x0) k0_pay13 (View.ld x3 (.unit _ _ inb_S1x4_S1x4_0_0)) (View.ld x1 (.unit _ _ inb_S128x4_S128x4_0_0))
def val0_5 : FVec F S5x128 .f32 :=
  k0_pay1 (m126 x0 x1 x3) k0_pay17
    (k0_pay18 (m105 x0) (m108 x0) k0_pay13 (View.ld x3 (.unit _ _ inb_S1x4_S1x4_0_0)) (View.ld x1 (.unit _ _ inb_S128x4_S128x4_0_0)))
    (k0_pay19 (m105 x0) (m108 x0) k0_pay13 (View.ld x3 (.unit _ _ inb_S1x4_S1x4_0_0)) (View.ld x1 (.unit _ _ inb_S128x4_S128x4_0_0)))
    (k0_pay20 (m105 x0) (m108 x0) k0_pay13 (View.ld x3 (.unit _ _ inb_S1x4_S1x4_0_0)) (View.ld x1 (.unit _ _ inb_S128x4_S128x4_0_0)))
    (k0_pay21 (m105 x0) (m108 x0) k0_pay13 (View.ld x3 (.unit _ _ inb_S1x4_S1x4_0_0)) (View.ld x1 (.unit _ _ inb_S128x4_S128x4_0_0)))
    k0_pay22
def val0_6 : FVec F S1x128 .f32 :=
  k0_pay2 (m126 x0 x1 x3)
    (k0_pay16 (m105 x0) (m108 x0) k0_pay13 (View.ld x3 (.unit _ _ inb_S1x4_S1x4_0_0)) (View.ld x4 (.unit _ _ inb_S1x4_S1x4_0_0)) (View.ld x2 (.unit _ _ inb_S1x128_S1x128_0_0)) (View.ld x1 (.unit _ _ inb_S128x4_S128x4_0_0)))

def out0_5 : Vec F S5x128 .f32 := View.canon [⟨r0_5, val0_5 x0 x1 x3⟩]
def out0_6 : Vec F S1x128 .f32 := View.canon [⟨r0_6, val0_6 x0 x1 x2 x3 x4⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 3 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl
theorem after0_5 (c : Dev nD) (t : Fin cfg0.N) :
    (dat0 V c).after 5 t = out0_5 (iblk0 V c 0 t) (iblk0 V c 1 t) (iblk0 V c 3 t) := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) := by dsimp only [dat0]

end Cert.KernelIdeal.Hand

end
-- ==== Proof.KI.Reg1Defs.lean ====
import proofs.«145576_g33105607918058_cont_8to1_b_384_29_alg».proof.Proof.Gen.KernelIdeal.Launch
import proofs.«145576_g33105607918058_cont_8to1_b_384_29_alg».proof.Proof.Gen.KernelIdeal.Skeleton
import proofs.«145576_g33105607918058_cont_8to1_b_384_29_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen Idealize.ShloMosaic Idealize.ShloMosaic.TcCoe Idealize.SL.RA Idealize.ShloMosaic.Rounds
open Idealize.ShloMosaic.Pipeline (Dat)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_8 : Rect S1000x1024 := (Rect.unit ![0, 0] S1000x1024.size inb_S1000x1024_S1000x1024_0_0)
abbrev r1_9 : Rect S1x1024 := (Rect.unit ![0, 0] S1x1024.size inb_S1x1024_S1x1024_0_0)

variable (x0 : Vec F S1000x5 .f32) (x1 : Vec F S1000x36 .f32) (x2 : Vec F S1000x2048 .f32) (x3 : Vec F S5x128 .f32) (x4 : Vec F S1x128 .f32) (x5 : Vec F S36x1024 .bf16) (x6 : Vec F S1024x2176 .bf16) (x7 : Vec F S1x1024 .f32)

def zf1 : FVec F S1000x1024 .f32 := k1_pay3 (View.ld x0 (Rect.unit ![0, 0] S1000x5.size inb_S1000x5_S1000x5_0_0)) (View.ld x3 (Rect.unit ![0, 0] S5x128.size inb_S5x128_S5x128_0_0)) (View.ld x4 (Rect.unit ![0, 0] S1x128.size inb_S1x128_S1x128_0_0)) (View.ld x2 (Rect.unit ![0, 0] S1000x2048.size inb_S1000x2048_S1000x2048_0_0)) (View.ld x6 (Rect.unit ![0, 0] S1024x2176.size inb_S1024x2176_S1024x2176_0_0)) (View.ld x1 (Rect.unit ![0, 0] S1000x36.size inb_S1000x36_S1000x36_0_0)) (View.ld x5 (Rect.unit ![0, 0] S36x1024.size inb_S36x1024_S36x1024_0_0)) (View.ld x7 (Rect.unit ![0, 0] S1x1024.size inb_S1x1024_S1x1024_0_0))
def zb1 : FVec F S1000x1024 .bf16 := k1_pay4 (View.ld x0 (Rect.unit ![0, 0] S1000x5.size inb_S1000x5_S1000x5_0_0)) (View.ld x3 (Rect.unit ![0, 0] S5x128.size inb_S5x128_S5x128_0_0)) (View.ld x4 (Rect.unit ![0, 0] S1x128.size inb_S1x128_S1x128_0_0)) (View.ld x2 (Rect.unit ![0, 0] S1000x2048.size inb_S1000x2048_S1000x2048_0_0)) (View.ld x6 (Rect.unit ![0, 0] S1024x2176.size inb_S1024x2176_S1024x2176_0_0)) (View.ld x1 (Rect.unit ![0, 0] S1000x36.size inb_S1000x36_S1000x36_0_0)) (View.ld x5 (Rect.unit ![0, 0] S36x1024.size inb_S36x1024_S36x1024_0_0)) (View.ld x7 (Rect.unit ![0, 0] S1x1024.size inb_S1x1024_S1x1024_0_0))
def zs1 : FVec F S1x1024 .f32 := k1_pay5 (View.ld x0 (Rect.unit ![0, 0] S1000x5.size inb_S1000x5_S1000x5_0_0)) (View.ld x3 (Rect.unit ![0, 0] S5x128.size inb_S5x128_S5x128_0_0)) (View.ld x4 (Rect.unit ![0, 0] S1x128.size inb_S1x128_S1x128_0_0)) (View.ld x2 (Rect.unit ![0, 0] S1000x2048.size inb_S1000x2048_S1000x2048_0_0)) (View.ld x6 (Rect.unit ![0, 0] S1024x2176.size inb_S1024x2176_S1024x2176_0_0)) (View.ld x1 (Rect.unit ![0, 0] S1000x36.size inb_S1000x36_S1000x36_0_0)) (View.ld x5 (Rect.unit ![0, 0] S36x1024.size inb_S36x1024_S36x1024_0_0)) (View.ld x7 (Rect.unit ![0, 0] S1x1024.size inb_S1x1024_S1x1024_0_0))
def zss1 : FVec F S1x1024 .f32 := k1_pay6 (View.ld x0 (Rect.unit ![0, 0] S1000x5.size inb_S1000x5_S1000x5_0_0)) (View.ld x3 (Rect.unit ![0, 0] S5x128.size inb_S5x128_S5x128_0_0)) (View.ld x4 (Rect.unit ![0, 0] S1x128.size inb_S1x128_S1x128_0_0)) (View.ld x2 (Rect.unit ![0, 0] S1000x2048.size inb_S1000x2048_S1000x2048_0_0)) (View.ld x6 (Rect.unit ![0, 0] S1024x2176.size inb_S1024x2176_S1024x2176_0_0)) (View.ld x1 (Rect.unit ![0, 0] S1000x36.size inb_S1000x36_S1000x36_0_0)) (View.ld x5 (Rect.unit ![0, 0] S36x1024.size inb_S36x1024_S36x1024_0_0)) (View.ld x7 (Rect.unit ![0, 0] S1x1024.size inb_S1x1024_S1x1024_0_0))

def out1_8 : Vec F S1000x1024 .bf16 := View.canon [⟨r1_8, zb1 x0 x1 x2 x3 x4 x5 x6 x7⟩]
def out1_9_A : Vec F S1x1024 .f32 := View.canon [⟨r1_9, zs1 x0 x1 x2 x3 x4 x5 x6 x7⟩]
def out1_10_A : Vec F S1x1024 .f32 := View.canon [⟨r1_9, zss1 x0 x1 x2 x3 x4 x5 x6 x7⟩]
def out1_9_B (xo : Vec F S1x1024 .f32) : Vec F S1x1024 .f32 :=
  View.canon [⟨r1_9, k1_pay1 (zs1 x0 x1 x2 x3 x4 x5 x6 x7) (View.ld xo (Rect.unit ![0, 0] S1x1024.size inb_S1x1024_S1x1024_0_0))⟩]
def out1_10_B (xo : Vec F S1x1024 .f32) : Vec F S1x1024 .f32 :=
  View.canon [⟨r1_9, k1_pay2 (zss1 x0 x1 x2 x3 x4 x5 x6 x7) (View.ld xo (Rect.unit ![0, 0] S1x1024.size inb_S1x1024_S1x1024_0_0))⟩]

def acc9 (c : Dev nD) : (n : ℕ) → n < cfg1.N → Vec F S1x1024 .f32
  | 0, hn => out1_9_A (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩)
  | n + 1, hn => out1_9_B (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (acc9 c n (Nat.lt_of_succ_lt hn))
def acc10 (c : Dev nD) : (n : ℕ) → n < cfg1.N → Vec F S1x1024 .f32
  | 0, hn => out1_10_A (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩)
  | n + 1, hn => out1_10_B (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (acc10 c n (Nat.lt_of_succ_lt hn))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => acc9 V c t.val t.isLt
    | ⟨10, _⟩ => acc10 V c t.val t.isLt
  Φ _ := Pipeline.ΦA spec1 c
  q _ := fullShare
  owed _ := 0

theorem A_eq1 (c : Dev nD) (w : Fin cfg1.W) : (dat1 V c).A w = V c (Pipeline.arrRef spec1 w) := rfl
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = acc9 V c t.val t.isLt := rfl
theorem after1_10 (c : Dev nD) (t : Fin cfg1.N) : (dat1 V c).after 10 t = acc10 V c t.val t.isLt := rfl

end Cert.KernelIdeal.Hand

end
-- ==== Proof.KI.Reg2Defs.lean ====
import proofs.«145576_g33105607918058_cont_8to1_b_384_29_alg».proof.Proof.Gen.KernelIdeal.Launch
import proofs.«145576_g33105607918058_cont_8to1_b_384_29_alg».proof.Proof.Gen.KernelIdeal.Skeleton
import proofs.«145576_g33105607918058_cont_8to1_b_384_29_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_7 : Rect S1000x37 := .unit _ _ inb_S1000x37_S1000x37_0_0

variable (x0 : Vec F S1000x1024 .bf16) (x1 x2 x3 x4 : Vec F S1x1024 .f32) (x5 : Vec F S37x1024 .bf16) (x6 : Vec F S1x37 .f32)

def val2_7 : FVec F S1000x37 .f32 :=
  k2_pay1 (View.ld x1 (.unit _ _ inb_S1x1024_S1x1024_0_0)) (View.ld x2 (.unit _ _ inb_S1x1024_S1x1024_0_0)) (View.ld x3 (.unit _ _ inb_S1x1024_S1x1024_0_0)) (View.ld x4 (.unit _ _ inb_S1x1024_S1x1024_0_0)) (View.ld x0 (.unit _ _ inb_S1000x1024_S1000x1024_0_0)) (View.ld x5 (.unit _ _ inb_S37x1024_S37x1024_0_0)) (View.ld x6 (.unit _ _ inb_S1x37_S1x37_0_0))
def out2_7 : Vec F S1000x37 .f32 := View.canon [⟨r2_7, val2_7 x0 x1 x2 x3 x4 x5 x6⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

end Cert.KernelIdeal.Hand

end
-- ==== Proof.KI.RunDefs.lean ====
import proofs.«145576_g33105607918058_cont_8to1_b_384_29_alg».proof.Proof.KI.Reg0Defs
import proofs.«145576_g33105607918058_cont_8to1_b_384_29_alg».proof.Proof.KI.Reg1Defs
import proofs.«145576_g33105607918058_cont_8to1_b_384_29_alg».proof.Proof.KI.Reg2Defs

noncomputable section

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
abbrev W3 (c : Dev nD) : Valuation τ sig (Elt F) := StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
abbrev W5 (c : Dev nD) : Valuation τ sig (Elt F) := StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N

end Cert.KernelIdeal.Hand

end
-- ==== Proof.KI.Run.lean ====
import proofs.«145576_g33105607918058_cont_8to1_b_384_29_alg».proof.Proof.KI.RunDefs

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev heldAt (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

def reg (p : Fin 3) (la : Pipeline.LaunchFacts (nD := nD) (τ := τ) cfgs p)
    (hb : ∀ c : Dev nD, BodyObligation (pdats m p c) (defs₀ (F := F)) Variants.none () Set.univ)
    (W : Dev nD → Valuation τ sig (Elt F))
    (hA : ∀ c w, (pdats m p c).A w = W c (Pipeline.arrRef (cfgs p).spec w))
    (hq : ∀ c w, (pdats m p c).q w = fullShare) (howed : ∀ c t, (pdats m p c).owed t = 0)
    (hrec : ∀ c t, (pdats m p c).recorded t = Set.univ) (hΦ : ∀ c t, (pdats m p c).Φ t = Pipeline.ΦA (cfgs p).spec c) :
    Pipeline.RegionSeg (pcfgs (F := F)) adm (pdats m) () defs₀ Variants.none L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p howed
  pre := heldAt W
  post := heldAt fun c => Pipeline.withArrays (cfgs p).spec c (W c) ((pdats m p c).arrAt · (cfgs p).N)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]; unfold Pipeline.Dat.owesAt Pipeline.Dat.bound; rw [howed, hrec]
    have hsplit := Pipeline.arrays_of_unscopedBufs (pcfgs (F := F)) adm (pdats m) la.win la.arr_whole c
      ((pdats m p c).share_full (hq c)) (fun b => W c b) (hA c)
    rw [Pipeline.unscopedBufs_held] at hsplit
    iintro ⟨⟨Hbufs, Hreg, Howes⟩, -, -⟩
    ihave Hsp := hsplit $$ Hbufs
    icases Hsp with ⟨Harr, Hrest⟩
    imodintro
    iframe Harr Hreg Hrest
    isplitr; · unfold Pipeline.prefHeld; rw [show (Finset.univ : Finset (Fin 0)) = ∅ from rfl, BI.bigSep_empty]; iempintro
    icases Howes with ⟨%W', Howes⟩; iexists W'; isplitr; · ipureintro; exact fun _ _ => Or.inl trivial
    iexact Howes
  hin c := by
    rw [hΦ]; unfold Pipeline.ΦA
    iintro ⟨Hreg, -, Hsc⟩; iframe
  hout c := by
    rw [Pipeline.ownSems0_none, hΦ]; unfold Pipeline.ΦA
    iintro ⟨Hsc, Hreg⟩; iframe; iempintro
  hexit c := by
    unfold Pipeline.Dat.owesAt; rw [howed]
    have hjoin := Pipeline.unscopedBufs_of_arrays (p := p) (pcfgs (F := F)) adm (Ix := Unit) (Name := ℕ) (U := UR sig nD τ) (Lvl := ℕ)
      la.win la.arr_whole c (pdats m) ((pdats m p c).share_full (hq c)) (fun b => W c b)
      (fun b => Pipeline.withArrays (cfgs p).spec c (W c) ((pdats m p c).arrAt · (cfgs p).N) b) _
      (fun w => (Pipeline.withArrays_arr (cfgs p).spec la.win.arr_inj c (W c) ((pdats m p c).arrAt · (cfgs p).N) w).symm)
      fun b hb => Pipeline.withArrays_of_ne (cfgs p).spec c (W c) ((pdats m p c).arrAt · (cfgs p).N) b fun w e =>
        hb (Finset.mem_image.mpr ⟨w, Finset.mem_univ _, e⟩)
    rw [Pipeline.unscopedBufs_held] at hjoin
    iintro ⟨Harr, Howes, Hreg, Hrest⟩
    imodintro
    isplitl [Harr Hrest]
    · iapply hjoin; iframe
    isplitl [Hreg]; · iexact Hreg
    icases Howes with ⟨%W', -, Howes⟩; iexists W'; iexact Howes

abbrev segs (hb : ∀ p (c : Dev nD), BodyObligation (pdats m p c) (defs₀ (F := F)) Variants.none () Set.univ) :
    List (Pipeline.Seg (pcfgs (F := F)) adm (pdats m) () defs₀ Variants.none L lv) :=
  [ .host (hseg hostOps0 hostOps0_sub (W0 m)),
    .region (reg m 0 launch0 (hb 0) (W1 m) (fun _ _ => rfl) (fun _ _ => rfl) (fun _ _ => rfl) (fun _ _ => rfl) fun _ _ => rfl),
    .host (hseg hostOps1 hostOps1_sub (W2 m)),
    .region (reg m 1 launch1 (hb 1) (W3 m) (fun _ _ => rfl) (fun _ _ => rfl) (fun _ _ => rfl) (fun _ _ => rfl) fun _ _ => rfl),
    .host (hseg hostOps2 hostOps2_sub (W4 m)),
    .region (reg m 2 launch2 (hb 2) (W5 m) (fun _ _ => rfl) (fun _ _ => rfl) (fun _ _ => rfl) (fun _ _ => rfl) fun _ _ => rfl) ]

set_option backward.isDefEq.respectTransparency.types false in
theorem run_all (ρ : Dev nD → PrngReg)
    (hb : ∀ p (c : Dev nD), BodyObligation (pdats m p c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ Variants.none L lv m ρ main (segs m hb)
    (fun c Q => by rw [show main (F := F) c = Pipeline.Seg.run (segs m hb) from (main_chain c).trans (by chain_rfl)])
    (by simp only [segs, Pipeline.Seg.pipes_host, Pipeline.Seg.pipes_region, Pipeline.Seg.pipes_nil]; decide)
    (O₀ := 0) (hL := fun _ _ => rfl) (G := fun _ => BI.emp)
    (u₀ := Rounds.initOf (Pipeline.cells cfgs cellOf_inj) (Pipeline.launchToks cfgs cellOf_inj))
    (hu₀ := by rw [BI.bigSep_emp_const]; exact sep_emp.2.trans fupd_intro)
    (T₀ := heldAt (W0 m)) (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W6 m c b)
    (hfin := fun c s' => by
      iintro ⟨⟨Hbufs, -⟩, HSI⟩
      unfold StableHlo.held
      imodintro
      iapply (pointsTo_read_all (Pipeline.ucRefs τ sig) (fun b => (((c : Thread nD τ)).1, b)) (W6 m c) s')
      isplitl [Hbufs] <;> iassumption)
    (hQ := fun s h c => h c)

end Cert.KernelIdeal.Hand

end
-- ==== Proof.KI.Glue.lean ====
import proofs.«145576_g33105607918058_cont_8to1_b_384_29_alg».proof.Proof.KI.RunDefs
import proofs.«145576_g33105607918058_cont_8to1_b_384_29_alg».proof.Proof.Gen.KernelIdeal.Regions

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ)

theorem withArrays_keep {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (o : Fin W → Bool) (hin : ∀ w, o w = false → A w = V (Proc.devRef .tc (Pipeline.arrRef win w)))
    (b : Ref sig .tc) (hb : ∀ w, o w = true → Pipeline.arrRef win w ≠ b) :
    Pipeline.withArrays win c V A (Proc.devRef .tc b) = V (Proc.devRef .tc b) := by
  by_cases h : ∃ w, Pipeline.arrRef win w = b
  · obtain ⟨w, rfl⟩ := h
    rw [Pipeline.withArrays_arr win hinj]
    cases hw : o w
    · exact hin w hw
    · exact absurd rfl (hb w hw)
  · exact Pipeline.withArrays_of_ne win c V A b fun w e => h ⟨w, e⟩

theorem W2_keep (c : Dev nD) (b : Ref sig .tc) (hb : ∀ w, (cfg0.win w).isOut = true → Pipeline.arrRef spec0 w ≠ b) :
    W2 m c (Proc.devRef .tc b) = W1 m c (Proc.devRef .tc b) :=
  withArrays_keep spec0 launch0.win.arr_inj c _ _ _ (fun w h => ((dat0 (V1 m) c).arrAt_in w h _).trans (A_eq0 (V1 m) c w)) b hb
theorem W4_keep (c : Dev nD) (b : Ref sig .tc) (hb : ∀ w, (cfg1.win w).isOut = true → Pipeline.arrRef spec1 w ≠ b) :
    W4 m c (Proc.devRef .tc b) = W3 m c (Proc.devRef .tc b) :=
  withArrays_keep spec1 launch1.win.arr_inj c _ _ _ (fun w h => ((dat1 (V3 m) c).arrAt_in w h _).trans (A_eq1 (V3 m) c w)) b hb
theorem W6_keep (c : Dev nD) (b : Ref sig .tc) (hb : ∀ w, (cfg2.win w).isOut = true → Pipeline.arrRef spec2 w ≠ b) :
    W6 m c (Proc.devRef .tc b) = W5 m c (Proc.devRef .tc b) :=
  withArrays_keep spec2 launch2.win.arr_inj c _ _ _ (fun w h => ((dat2 (V5 m) c).arrAt_in w h _).trans (A_eq2 (V5 m) c w)) b hb

private theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
private theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h

-- No host operation writes `r` and `r` is no region's output array: it holds the launch memory at every boundary.
abbrev Kept (r : Ref sig .tc) : Prop :=
  r ∉ hostOps0_W ∧ (∀ w, (cfg0.win w).isOut = true → Pipeline.arrRef spec0 w ≠ r) ∧ r ∉ hostOps1_W ∧
  (∀ w, (cfg1.win w).isOut = true → Pipeline.arrRef spec1 w ≠ r) ∧ r ∉ hostOps2_W ∧
  ∀ w, (cfg2.win w).isOut = true → Pipeline.arrRef spec2 w ≠ r

variable (c : Dev nD) (r : Ref sig .tc) (h : Kept r)
include h
theorem W2_launch : W2 m c (Proc.devRef .tc r) = m ((c : Thread nD τ).loc r) := (W2_keep m c r h.2.1).trans (W1_of m c r h.1)
theorem W3_launch : W3 m c (Proc.devRef .tc r) = m ((c : Thread nD τ).loc r) := (W3_of m c r h.2.2.1).trans (W2_launch m c r h)
theorem W4_launch : W4 m c (Proc.devRef .tc r) = m ((c : Thread nD τ).loc r) := (W4_keep m c r h.2.2.2.1).trans (W3_launch m c r h)
theorem W6_launch : W6 m c (Proc.devRef .tc r) = m ((c : Thread nD τ).loc r) :=
  (W6_keep m c r h.2.2.2.2.2).trans ((W5_of m c r h.2.2.2.2.1).trans (W4_launch m c r h))
omit h

theorem W6_v19 : W6 m c (Proc.devRef .tc main_v19) = (dat2 (V5 m) c).arrAt 7 cfg2.N :=
  Pipeline.withArrays_arr spec2 launch2.win.arr_inj c _ _ 7

theorem V5_v15_0 : V5 m c main_v15_0 = (dat1 (V3 m) c).arrAt 8 cfg1.N :=
  (W5_of m c main_v15_0 (by decide)).trans (W4_arr m c 8)
theorem V5_v15_1 : V5 m c main_v15_1 = (dat1 (V3 m) c).arrAt 9 cfg1.N :=
  (W5_of m c main_v15_1 (by decide)).trans (W4_arr m c 9)
theorem V5_v15_2 : V5 m c main_v15_2 = (dat1 (V3 m) c).arrAt 10 cfg1.N :=
  (W5_of m c main_v15_2 (by decide)).trans (W4_arr m c 10)
theorem V5_v16 : V5 m c main_v16 = broadcastInDim S1x1024 ![1] bcast_S1024_S1x1024_1 (m ((c : Thread nD τ).loc main_arg11)) := by
  show StableHlo.after _ _ _ = _; after_results; rw [W4_launch m c main_arg11 (by decide)]
theorem V5_v17 : V5 m c main_v17 = broadcastInDim S1x1024 ![1] bcast_S1024_S1x1024_1 (m ((c : Thread nD τ).loc main_arg12)) := by
  show StableHlo.after _ _ _ = _; after_results; rw [W4_launch m c main_arg12 (by decide)]
theorem V5_v18 : V5 m c main_v18 = broadcastInDim S1x37 ![1] bcast_S37_S1x37_1 (m ((c : Thread nD τ).loc main_arg14)) := by
  show StableHlo.after _ _ _ = _; after_results; rw [W4_launch m c main_arg14 (by decide)]
theorem V3_v13 : V3 m c main_v13 = truncf .bf16 (m ((c : Thread nD τ).loc main_arg13)) bitsLt_bf16_f32 := by
  show StableHlo.after _ _ _ = _; after_results; rw [W2_launch m c main_arg13 (by decide)]
theorem V5_v13 : V5 m c main_v13 = truncf .bf16 (m ((c : Thread nD τ).loc main_arg13)) bitsLt_bf16_f32 :=
  (W5_of m c main_v13 (by decide)).trans ((W4_keep m c main_v13 (by decide)).trans (V3_v13 m c))

theorem V3_arg0 : V3 m c main_arg0 = m ((c : Thread nD τ).loc main_arg0) := W3_launch m c main_arg0 (by decide)
theorem V3_arg1 : V3 m c main_arg1 = m ((c : Thread nD τ).loc main_arg1) := W3_launch m c main_arg1 (by decide)
theorem V3_arg2 : V3 m c main_arg2 = m ((c : Thread nD τ).loc main_arg2) := W3_launch m c main_arg2 (by decide)
theorem V3_v4_0 : V3 m c main_v4_0 = (dat0 (V1 m) c).arrAt 5 cfg0.N :=
  (W3_of m c main_v4_0 (by decide)).trans (W2_arr m c 5)
theorem V3_v4_1 : V3 m c main_v4_1 = (dat0 (V1 m) c).arrAt 6 cfg0.N :=
  (W3_of m c main_v4_1 (by decide)).trans (W2_arr m c 6)
theorem V3_v12 : V3 m c main_v12 = truncf .bf16 (Host.dotGeneral dot_S36x200_S200x1024_S36x1024_1_0_0_1_n_n none (m ((c : Thread nD τ).loc main_arg4))
      (transpose S200x1024 [1, 0] (extractStridedSlice S1024x200 ![0, 2048] (m ((c : Thread nD τ).loc main_arg9)) slices_S1024x2376_S1024x200_0_2048) transposes_S1024x200_S200x1024_1_0)) bitsLt_bf16_f32 := by
  show StableHlo.after _ _ _ = _; after_results
  rw [W2_launch m c main_arg4 (by decide), W2_launch m c main_arg9 (by decide)]
theorem V3_v8 : V3 m c main_v8 = truncf .bf16 (concatenate S1024x2176 1
      [⟨S1024x2048, extractStridedSlice S1024x2048 ![0, 0] (m ((c : Thread nD τ).loc main_arg9)) slices_S1024x2376_S1024x2048_0_0⟩,
       ⟨S1024x128, extractStridedSlice S1024x128 ![0, 2248] (m ((c : Thread nD τ).loc main_arg9)) slices_S1024x2376_S1024x128_0_2248⟩]
      concatenates_S1024x2048_S1024x128_S1024x2176_d1) bitsLt_bf16_f32 := by
  show StableHlo.after _ _ _ = _; after_results; rw [W2_launch m c main_arg9 (by decide)]
theorem V3_v14 : V3 m c main_v14 = broadcastInDim S1x1024 ![1] bcast_S1024_S1x1024_1 (m ((c : Thread nD τ).loc main_arg10)) := by
  show StableHlo.after _ _ _ = _; after_results; rw [W2_launch m c main_arg10 (by decide)]

theorem V1_v0 : V1 m c main_v0 = shapeCast S625x160 (m ((c : Thread nD τ).loc main_arg1)) shapeCasts_S20000x5_S625x160 := by
  show StableHlo.after _ _ _ = _; after_results; rfl
theorem V1_arg7 : V1 m c main_arg7 = m ((c : Thread nD τ).loc main_arg7) := W1_of m c main_arg7 (by decide)
theorem V1_v1 : V1 m c main_v1 = broadcastInDim S1x128 ![1] bcast_S128_S1x128_1 (m ((c : Thread nD τ).loc main_arg8)) := by
  show StableHlo.after _ _ _ = _; after_results
theorem V1_v2 : V1 m c main_v2 = broadcastInDim S1x4 ![1] bcast_S4_S1x4_1 (m ((c : Thread nD τ).loc main_arg5)) := by
  show StableHlo.after _ _ _ = _; after_results
theorem V1_v3 : V1 m c main_v3 = broadcastInDim S1x4 ![1] bcast_S4_S1x4_1 (m ((c : Thread nD τ).loc main_arg6)) := by
  show StableHlo.after _ _ _ = _; after_results

end Cert.KernelIdeal.Hand
-- ==== Proof.KI.Reg0Body.lean ====
import proofs.«145576_g33105607918058_cont_8to1_b_384_29_alg».proof.Proof.KI.Reg0Defs

noncomputable section

namespace Cert.KernelIdeal.Hand

open Cert.KernelIdeal Cert.KernelIdeal.Gen
open Idealize.ShloMosaic Idealize.ShloMosaic.TcCoe
open Idealize.ShloMosaic.Pipeline (Dat BodyObligation)

variable {F : FTy → Type} [FloatOps F]

variable (V : (c : Dev nD) → (b : Ref sig .tc) → Buf (Elt F) ((c : Thread nD τ).loc b))

theorem before0 (c : Dev nD) (t : Fin cfg0.N) :
    ∀ w : Fin cfg0.W, w.val < 5 → ∀ d, (dat0 V c).before w t d = (dat0 V c).after w t
  | ⟨0, _⟩, _, d | ⟨1, _⟩, _, d | ⟨2, _⟩, _, d | ⟨3, _⟩, _, d | ⟨4, _⟩, _, d =>
    (Dat.before_in_eq_fetched _ _ rfl (fun _ => rfl) (fun _ _ _ => rfl) (fun _ => rfl) t d).trans rfl
  | ⟨5, _⟩, h, _ | ⟨6, _⟩, h, _ => absurd h (by simp)

theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).after 5 t = out0_5 ((dat0 V c).after 0 t) ((dat0 V c).after 1 t) ((dat0 V c).after 3 t) from after0_5 V c t,
    show (dat0 V c).after 6 t = out0_6 ((dat0 V c).after 0 t) ((dat0 V c).after 1 t) ((dat0 V c).after 2 t) ((dat0 V c).after 3 t) ((dat0 V c).after 4 t) from after0_6 V c t]
  simp (disch := decide) only [before0 V]
  generalize (dat0 V c).after 0 t = x0, (dat0 V c).after 1 t = x1, (dat0 V c).after 2 t = x2, (dat0 V c).after 3 t = x3, (dat0 V c).after 4 t = x4
  sl_whnfR [defs₀, Defs.onTc]
  simp only [cc0__stats_kernel_eq_skeleton]; unfold cc0__stats_kernel_skel owns
  iintro ⟨HΦ, Ho, ⟨%_, %f0, %e0, H0⟩, ⟨%_, %f1, %e1, H1⟩, ⟨%_, %f2, %e2, H2⟩, ⟨%_, %f3, %e3, H3⟩, ⟨%_, %f4, %e4, H4⟩, ⟨%_, %f5, -, H5⟩, ⟨%_, %f6, -, H6⟩⟩
  subst e0 e1 e2 e3 e4
  sl_exec
  sl_step
  iframe HΦ
  isplitl [Ho]; · iexact Ho
  isplitl [H0]; · iexists _; iframe; ipureintro; rfl
  isplitl [H1]; · iexists _; iframe; ipureintro; rfl
  isplitl [H2]; · iexists _; iframe; ipureintro; rfl
  isplitl [H3]; · iexists _; iframe; ipureintro; rfl
  isplitl [H4]; · iexists _; iframe; ipureintro; rfl
  isplitl [H5] <;> iexists _ <;> iframe <;> ipureintro <;>
    exact View.read_writes_eq_canon _ _ _ (View.cover_of_tiled _ (Shape.size _) (by rfl))

end Cert.KernelIdeal.Hand

end
-- ==== Proof.KI.Reg1Body.lean ====
import proofs.«145576_g33105607918058_cont_8to1_b_384_29_alg».proof.Proof.KI.Reg1Defs

namespace Cert.KernelIdeal.Hand

open Cert.KernelIdeal.Gen Idealize.ShloMosaic Idealize.ShloMosaic.TcCoe Idealize.SL Idealize.SL.RA Idealize.SL.BI Idealize.SL.BI.BIBase Idealize.SL.Sem Idealize.ShloMosaic.Rounds
open Idealize.ShloMosaic.Pipeline (Dat BodyObligation)

variable {F : FTy → Type} [FloatOps F]

variable (V : (c : Dev nD) → (b : Ref sig .tc) → Buf (Elt F) ((c : Thread nD τ).loc b))

-- the first condition holds at the first point only, the second at every later point
theorem hcond1 : ∀ t : Fin cfg1.N, (k1_cond1 (grid1.coords t) = 1#1 ↔ t.val = 0) ∧ (k1_cond2 (grid1.coords t) = 1#1 ↔ t.val ≠ 0) := by
  decide +kernel

theorem live1 : ∀ (w : Fin cfg1.W) (i : grid1.Coords), cfg1.idle w i = false := by decide +kernel

theorem inputs1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) ∧ (∀ d, (dat1 V c).before 7 t d = iblk1 V c 7 t) := by
  refine ⟨?_, ?_, ?_, ?_, ?_, ?_, ?_, ?_⟩ <;>
    exact fun d => ((dat1 V c).before_in_eq_fetched _ rfl (live1 _) (fun _ _ _ => rfl) (fun _ => rfl) t d).trans rfl

theorem before1_acc (c : Dev nD) (t : Fin cfg1.N) (h0 : t.val ≠ 0) (d9 d10) :
    (dat1 V c).before 9 t d9 = acc9 V c (t.val - 1) (Nat.lt_of_le_of_lt (Nat.sub_le _ _) t.isLt)
      ∧ (dat1 V c).before 10 t d10 = acc10 V c (t.val - 1) (Nat.lt_of_le_of_lt (Nat.sub_le _ _) t.isLt) := by
  have hN : t.val < 20 := lt_of_lt_of_eq t.isLt (show cfg1.N = 20 from N_1)
  constructor <;> refine Dat.before_out_kept _ _ rfl t h0 (Bool.eq_false_iff.mpr fun h => ?_) (live1 _) (fun _ _ => rfl) _
  · have := (flush1_9 _).mp h; dsimp only at this; omega
  · have := (flush1_10 _).mp h; dsimp only at this; omega

variable (x0 : Vec F S1000x5 .f32) (x1 : Vec F S1000x36 .f32) (x2 : Vec F S1000x2048 .f32) (x3 : Vec F S5x128 .f32) (x4 : Vec F S1x128 .f32) (x5 : Vec F S36x1024 .bf16) (x6 : Vec F S1024x2176 .bf16) (x7 : Vec F S1x1024 .f32)

-- the two cases: which condition holds, and the running sums set to this block's sums or increased by them
def Case1 (i : grid1.Coords) (xo9 xo10 o9 o10 : Vec F S1x1024 .f32) : Prop :=
  k1_cond1 i = 1#1 ∧ ¬ k1_cond2 i = 1#1 ∧ o9 = out1_9_A x0 x1 x2 x3 x4 x5 x6 x7 ∧ o10 = out1_10_A x0 x1 x2 x3 x4 x5 x6 x7
    ∨ ¬ k1_cond1 i = 1#1 ∧ k1_cond2 i = 1#1 ∧ o9 = out1_9_B x0 x1 x2 x3 x4 x5 x6 x7 xo9 ∧ o10 = out1_10_B x0 x1 x2 x3 x4 x5 x6 x7 xo10

theorem sound_kernel1 (c : Dev nD) (E : Set ℕ) (i : grid1.Coords) (arg1 : Memref sig .tc .vmem S1000x5 .f32) (harg1 : arg1.IsWhole) (arg2 : Memref sig .tc .vmem S1000x36 .f32) (harg2 : arg2.IsWhole) (arg3 : Memref sig .tc .vmem S1000x2048 .f32) (harg3 : arg3.IsWhole) (arg4 : Memref sig .tc .vmem S5x128 .f32) (harg4 : arg4.IsWhole) (arg5 : Memref sig .tc .vmem S1x128 .f32) (harg5 : arg5.IsWhole) (arg6 : Memref sig .tc .vmem S36x1024 .bf16) (harg6 : arg6.IsWhole) (arg7 : Memref sig .tc .vmem S1024x2176 .bf16) (harg7 : arg7.IsWhole) (arg8 : Memref sig .tc .vmem S1x1024 .f32) (harg8 : arg8.IsWhole) (arg9 : Memref sig .tc .vmem S1000x1024 .bf16) (harg9 : arg9.IsWhole) (arg10 : Memref sig .tc .vmem S1x1024 .f32) (harg10 : arg10.IsWhole) (arg11 : Memref sig .tc .vmem S1x1024 .f32) (harg11 : arg11.IsWhole)
    (xo9 xo10 o9 o10 : Vec F S1x1024 .f32) (h : Case1 x0 x1 x2 x3 x4 x5 x6 x7 i xo9 xo10 o9 o10) (K : PUnit → sProp (MT nD τ sig Unit (Elt F) ℕ (UR sig nD τ) ℕ)) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7
        ∗ (∃ d, owns c.tc arg9 fullShare d) ∗ owns c.tc arg10 fullShare xo9 ∗ owns c.tc arg11 fullShare xo10
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7
            ∗ owns c.tc arg9 fullShare (out1_8 x0 x1 x2 x3 x4 x5 x6 x7) ∗ owns c.tc arg10 fullShare o9 ∗ owns c.tc arg11 fullShare o10) -∗ K ⟨⟩))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11) K := by
  sl_unfold [cc1__main_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf0 hf1 hf2 hf3 hf4 hf5 hf6 hf7 hf9 hf10
  rcases h with ⟨hc1, hc2, rfl, rfl⟩ | ⟨hc1, hc2, rfl, rfl⟩ <;> (
    sl_exec (disch := first | sl_exact hc1 | sl_exact hc2)
    sl_step
    iapply Hk
    isplitl [H0]; · istop; exact owns_intro _ _ _ f0
    isplitl [H1]; · istop; exact owns_intro _ _ _ f1
    isplitl [H2]; · istop; exact owns_intro _ _ _ f2
    isplitl [H3]; · istop; exact owns_intro _ _ _ f3
    isplitl [H4]; · istop; exact owns_intro _ _ _ f4
    isplitl [H5]; · istop; exact owns_intro _ _ _ f5
    isplitl [H6]; · istop; exact owns_intro _ _ _ f6
    isplitl [H7]; · istop; exact owns_intro _ _ _ f7
    isplitl [H8]; · iexists _; isplitr; swap; · iexact H8
                    ipureintro; exact View.read_writes_eq_canon _ _ _ (View.cover_of_tiled _ S1000x1024.size (by rfl))
    isplitl [H9] <;> (iexists _; isplitr; swap; · iassumption
                      ipureintro; exact View.read_writes_eq_canon _ _ _ (View.cover_of_tiled _ S1x1024.size (by rfl))))

-- the first point is in the first case; a later point is in the second, over the running sums of the point before
theorem case1_at (c : Dev nD) (t : Fin cfg1.N) (d9 d10) :
    Case1 (iblk1 V c 0 t) (iblk1 V c 1 t) (iblk1 V c 2 t) (iblk1 V c 3 t) (iblk1 V c 4 t) (iblk1 V c 5 t) (iblk1 V c 6 t) (iblk1 V c 7 t) (grid1.coords t) ((dat1 V c).before 9 t d9) ((dat1 V c).before 10 t d10) ((dat1 V c).after 9 t) ((dat1 V c).after 10 t) := by
  obtain ⟨h1, h2⟩ := hcond1 t
  obtain ⟨_ | n, hn⟩ := t
  · exact .inl ⟨h1.2 rfl, fun h => h2.1 h rfl, (after1_9 V c _).trans rfl, (after1_10 V c _).trans rfl⟩
  · obtain ⟨e9, e10⟩ := before1_acc V c ⟨n + 1, hn⟩ n.succ_ne_zero d9 d10
    exact .inr ⟨fun h => n.succ_ne_zero (h1.1 h), h2.2 n.succ_ne_zero, by rw [e9, after1_9]; rfl, by rw [e10, after1_10]; rfl⟩

theorem body_obligation1 (c : Dev nD) : BodyObligation (dat1 (F := F) V c) (defs₀ (F := F)) Variants.none () Set.univ := fun t => by
  rw [bigSep_W1, bigSep_W1, live1 9]
  sl_whnfR [defs₀, Defs.onTc]
  simp only [inputs1 V c t, after1_8]
  rw [show (dat1 V c).Φ t.succ = (dat1 V c).Φ t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 (iblk1 V c 0 t) (iblk1 V c 1 t) (iblk1 V c 2 t) (iblk1 V c 3 t) (iblk1 V c 4 t) (iblk1 V c 5 t) (iblk1 V c 6 t) (iblk1 V c 7 t) c Set.univ (grid1.coords t) _ _ _ _ _ _ _ _ _ _ _ _ _ _ _ _ _ _ _ _ _ _ _ _ _ _ (case1_at V c t d9 d10) _)
  iframe H0 H1 H2 H3 H4 H5 H6 H7 H9 H10
  isplitl [H8]; · iexists _; iexact H8
  iintro HW
  isplitl [HΦ]; · iexact HΦ
  isplitl [Ho]; · iexact Ho
  iexact HW

end Cert.KernelIdeal.Hand
-- ==== Proof.KI.Reg2Body.lean ====
import proofs.«145576_g33105607918058_cont_8to1_b_384_29_alg».proof.Proof.KI.Reg2Defs

noncomputable section

namespace Cert.KernelIdeal.Hand

open Cert.KernelIdeal Cert.KernelIdeal.Gen
open Idealize.ShloMosaic Idealize.ShloMosaic.TcCoe
open Idealize.ShloMosaic.Pipeline (Dat BodyObligation)

variable {F : FTy → Type} [FloatOps F]

variable (V : (c : Dev nD) → (b : Ref sig .tc) → Buf (Elt F) ((c : Thread nD τ).loc b))

theorem before2 (c : Dev nD) (t : Fin cfg2.N) :
    ∀ w : Fin cfg2.W, w.val < 7 → ∀ d, (dat2 V c).before w t d = (dat2 V c).after w t
  | ⟨0, _⟩, _, d | ⟨1, _⟩, _, d | ⟨2, _⟩, _, d | ⟨3, _⟩, _, d | ⟨4, _⟩, _, d | ⟨5, _⟩, _, d | ⟨6, _⟩, _, d =>
    (Dat.before_in_eq_fetched _ _ rfl (fun _ => rfl) (fun _ _ _ => rfl) (fun _ => rfl) t d).trans rfl
  | ⟨7, _⟩, h, _ => absurd h (by simp)

theorem body_obligation2 (c : Dev nD) : BodyObligation (dat2 (F := F) V c) (defs₀ (F := F)) Variants.none () Set.univ := fun t => by
  rw [bigSep_W2, bigSep_W2, show (dat2 V c).Φ t.succ = (dat2 V c).Φ t.castSucc from rfl,
    show (dat2 V c).after 7 t = out2_7 ((dat2 V c).after 0 t) ((dat2 V c).after 1 t) ((dat2 V c).after 2 t) ((dat2 V c).after 3 t) ((dat2 V c).after 4 t) ((dat2 V c).after 5 t) ((dat2 V c).after 6 t) from after2_7 V c t]
  simp (disch := decide) only [before2 V]
  generalize (dat2 V c).after 0 t = x0, (dat2 V c).after 1 t = x1, (dat2 V c).after 2 t = x2, (dat2 V c).after 3 t = x3, (dat2 V c).after 4 t = x4, (dat2 V c).after 5 t = x5, (dat2 V c).after 6 t = x6
  sl_whnfR [defs₀, Defs.onTc]
  simp only [cc2__finish_kernel_eq_skeleton]; unfold cc2__finish_kernel_skel owns
  iintro ⟨HΦ, Ho, ⟨%_, %f0, %e0, H0⟩, ⟨%_, %f1, %e1, H1⟩, ⟨%_, %f2, %e2, H2⟩, ⟨%_, %f3, %e3, H3⟩, ⟨%_, %f4, %e4, H4⟩, ⟨%_, %f5, %e5, H5⟩, ⟨%_, %f6, %e6, H6⟩, ⟨%_, %f7, -, H7⟩⟩
  subst e0 e1 e2 e3 e4 e5 e6
  sl_exec
  sl_step
  iframe HΦ
  isplitl [Ho]; · iexact Ho
  isplitl [H0]; · iexists _; iframe; ipureintro; rfl
  isplitl [H1]; · iexists _; iframe; ipureintro; rfl
  isplitl [H2]; · iexists _; iframe; ipureintro; rfl
  isplitl [H3]; · iexists _; iframe; ipureintro; rfl
  isplitl [H4]; · iexists _; iframe; ipureintro; rfl
  isplitl [H5]; · iexists _; iframe; ipureintro; rfl
  isplitl [H6]; · iexists _; iframe; ipureintro; rfl
  iexists _; iframe; ipureintro
  exact View.read_writes_eq_canon _ _ _ (View.cover_of_tiled _ (Shape.size _) (by rfl))

end Cert.KernelIdeal.Hand

end
-- ==== Proof.KI.Frame.lean ====
import proofs.«145576_g33105607918058_cont_8to1_b_384_29_alg».proof.Proof.KI.Run
import proofs.«145576_g33105607918058_cont_8to1_b_384_29_alg».proof.Proof.KI.Glue
import proofs.«145576_g33105607918058_cont_8to1_b_384_29_alg».proof.Proof.KI.Reg0Body
import proofs.«145576_g33105607918058_cont_8to1_b_384_29_alg».proof.Proof.KI.Reg1Body
import proofs.«145576_g33105607918058_cont_8to1_b_384_29_alg».proof.Proof.KI.Reg2Body

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ)

theorem run_final (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m c b) :=
  run_all m ρ fun | 0 => body_obligation0 (V1 m) | 1 => body_obligation1 (V3 m) | 2 => body_obligation2 (V5 m)

-- Nothing writes an argument array, so it is read back off the last contents as launched.
theorem run_value (ρ : Dev nD → PrngReg) :
    θ_run defs (onTc (τ := τ) (main (F := F))) ⟨m, fun _ => 0, ρ⟩ (fun r => ∀ c : Dev nD,
      r.2.mem ((c.tc : Thread nD τ).loc main_v19) = W6 m c (Proc.devRef .tc main_v19)
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    refine ⟨h c _ (mem_uc main_v19 (by decide)), ?_, ?_, ?_, ?_, ?_, ?_, ?_, ?_, ?_, ?_, ?_, ?_, ?_, ?_, ?_, ?_⟩ <;>
      exact (h c _ (mem_uc _ (by decide))).trans (W6_launch m c _ (by decide))) (run_final m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2.2) (run_value m ρ)

end Cert.KernelIdeal.Hand
-- ==== Proof.Spec.lean ====
import Idealize.ShloMosaic.PureOps.Ideal
import Idealize.ShloMosaic.Lib.ValueIdx

noncomputable section

open scoped BigOperators

namespace Cert.Spec

open Idealize.ShloMosaic

abbrev cN : EReal := Ideal.ofBits .f32 0x469C4000#32
abbrev cEps : EReal := Ideal.ofBits .f32 0x3727C5AC#32
abbrev cHalf : EReal := Ideal.ofBits .f32 0x3F000000#32
abbrev cOne : EReal := Ideal.ofBits .f32 0x3F800000#32

def lane (l : Fin 160) (k : ℕ) : Fin 160 := ⟨(l.val + k) % 160, Nat.mod_lt _ (by norm_num)⟩
def row (t : Fin 20) (i : Fin 1000) : Fin 20000 := ⟨1000 * t.val + i.val, by omega⟩
section K0
variable (xp : Fin 625 → Fin 160 → EReal) (posW : Fin 128 → Fin 4 → EReal) (posb : Fin 128 → EReal)
  (g4 be4 : Fin 4 → EReal)

def whP (a : Fin 625) (l : Fin 160) : EReal := (xp a (lane l 2) - xp a l) + cOne
def ctrP (a : Fin 625) (l : Fin 160) : EReal := xp a l + cHalf * whP xp a l
def gsum (v : Fin 160 → EReal) (l : Fin 160) : EReal := ∑ g : Fin 32, v (lane l (5 * g.val))
def rc (l : Fin 160) : EReal := gsum (fun l' => ∑ a : Fin 625, ctrP xp a l') l
def rw (l : Fin 160) : EReal := gsum (fun l' => ∑ a : Fin 625, whP xp a l') l
def rc2 (l : Fin 160) : EReal := gsum (fun l' => ∑ a : Fin 625, ctrP xp a l' * ctrP xp a l') l
def rw2 (l : Fin 160) : EReal := gsum (fun l' => ∑ a : Fin 625, whP xp a l' * whP xp a l') l
def sel4 (p q : Fin 160 → EReal) (i : Fin 4) : EReal :=
  if i.val < 2 then p ⟨i.val + 1, by omega⟩ else q ⟨i.val - 1, by omega⟩
def mu4 (i : Fin 4) : EReal := Ideal.div (sel4 (rc xp) (rw xp) i) cN
def ex4 (i : Fin 4) : EReal := Ideal.div (sel4 (rc2 xp) (rw2 xp) i) cN
def var4 (i : Fin 4) : EReal := ex4 xp i - mu4 xp i * mu4 xp i
def scale4 (i : Fin 4) : EReal := g4 i * Ideal.rsqrt (var4 xp i + cEps)
def shift4 (i : Fin 4) : EReal := be4 i - mu4 xp i * scale4 xp g4 i
def a4t (q : Fin 4) (l : Fin 128) : EReal := posW l q * scale4 xp g4 q
def beff (l : Fin 128) : EReal := posb l + ∑ q : Fin 4, posW l q * shift4 xp g4 be4 q
def kB5 (k : Fin 5) (l : Fin 128) : EReal :=
  match k with
  | ⟨0, _⟩ => 0
  | ⟨1, _⟩ => cHalf * a4t xp posW g4 0 l - a4t xp posW g4 2 l
  | ⟨2, _⟩ => cHalf * a4t xp posW g4 1 l - a4t xp posW g4 3 l
  | ⟨3, _⟩ => cHalf * a4t xp posW g4 0 l + a4t xp posW g4 2 l
  | ⟨4, _⟩ => cHalf * a4t xp posW g4 1 l + a4t xp posW g4 3 l
def kCv (l : Fin 128) : EReal :=
  (((beff xp posW posb g4 be4 l + cHalf * a4t xp posW g4 0 l) + cHalf * a4t xp posW g4 1 l) + a4t xp posW g4 2 l)
    + a4t xp posW g4 3 l
end K0

section K2
variable (z : Fin 20000 → Fin 1024 → EReal) (s ss g2 be2 : Fin 1024 → EReal) (W2 : Fin 37 → Fin 1024 → EReal) (b2 : Fin 37 → EReal)
def kMu (r : Fin 1024) : EReal := Ideal.div (s r) cN
def kVar (r : Fin 1024) : EReal := Ideal.div (ss r) cN - kMu s r * kMu s r
def kScale (r : Fin 1024) : EReal := g2 r * Ideal.rsqrt (kVar s ss r + cEps)
def kShift (r : Fin 1024) : EReal := be2 r - kMu s r * kScale s ss g2 r
def kH (n : Fin 20000) (r : Fin 1024) : EReal := max (z n r * kScale s ss g2 r + kShift s ss g2 be2 r) 0
def kOut (n : Fin 20000) (j : Fin 37) : EReal := (∑ r : Fin 1024, kH z s ss g2 be2 n r * W2 j r) + b2 j
end K2

section Chains
variable (dist : Fin 20000 → Fin 36 → EReal) (boxes : Fin 20000 → Fin 5 → EReal) (feat : Fin 20000 → Fin 2048 → EReal)
  (We : Fin 36 → Fin 200 → EReal) (g4 be4 : Fin 4 → EReal) (posW : Fin 128 → Fin 4 → EReal) (posb : Fin 128 → EReal)
  (W1 : Fin 1024 → Fin 2376 → EReal) (b1 g2 be2 : Fin 1024 → EReal) (W2 : Fin 37 → Fin 1024 → EReal) (b2 : Fin 37 → EReal)

def pack : Fin 625 → Fin 160 → EReal :=
  fun a l => boxes ⟨32 * a.val + l.val / 5, by omega⟩ ⟨l.val % 5, Nat.mod_lt _ (by norm_num)⟩
def kPe (B5 : Fin 5 → Fin 128 → EReal) (cv : Fin 128 → EReal) (n : Fin 20000) (l : Fin 128) : EReal :=
  max ((∑ k : Fin 5, boxes n k * B5 k l) + cv l) 0
def xcat (pe : Fin 20000 → Fin 128 → EReal) (n : Fin 20000) (col : Fin 2176) : EReal :=
  if h : col.val < 2048 then feat n ⟨col.val, h⟩ else pe n ⟨col.val - 2048, by omega⟩
def kW1fp (r : Fin 1024) (col : Fin 2176) : EReal :=
  if h : col.val < 2048 then W1 r ⟨col.val, by omega⟩ else W1 r ⟨col.val + 200, by omega⟩
def kWdt (k : Fin 36) (r : Fin 1024) : EReal := ∑ q : Fin 200, We k q * W1 r ⟨2048 + q.val, by omega⟩
def kZ (pe : Fin 20000 → Fin 128 → EReal) (dist : Fin 20000 → Fin 36 → EReal) (feat : Fin 20000 → Fin 2048 → EReal)
    (wdt : Fin 36 → Fin 1024 → EReal) (w1fp : Fin 1024 → Fin 2176 → EReal) (b1 : Fin 1024 → EReal)
    (n : Fin 20000) (r : Fin 1024) : EReal :=
  ((∑ col : Fin 2176, xcat feat pe n col * w1fp r col) + ∑ k : Fin 36, dist n k * wdt k r) + b1 r
def kS (z : Fin 20000 → Fin 1024 → EReal) (r : Fin 1024) : EReal := ∑ t : Fin 20, ∑ i : Fin 1000, z (row t i) r
def kSS (z : Fin 20000 → Fin 1024 → EReal) (r : Fin 1024) : EReal :=
  ∑ t : Fin 20, ∑ i : Fin 1000, z (row t i) r * z (row t i) r
def rWh (n : Fin 20000) (j : Fin 2) : EReal :=
  (boxes n ⟨j.val + 3, by omega⟩ - boxes n ⟨j.val + 1, by omega⟩) + cOne
def rCtr (n : Fin 20000) (j : Fin 2) : EReal := boxes n ⟨j.val + 1, by omega⟩ + cHalf * rWh boxes n j
def rCs (n : Fin 20000) (q : Fin 4) : EReal :=
  if h : q.val < 2 then rCtr boxes n ⟨q.val, h⟩ else rWh boxes n ⟨q.val - 2, by omega⟩
section BN
variable {C : ℕ} (x : Fin 20000 → Fin C → EReal) (g b : Fin C → EReal)
def rMean (q : Fin C) : EReal := Ideal.div (∑ n : Fin 20000, x n q) cN
def rVar (q : Fin C) : EReal := Ideal.div (∑ n : Fin 20000, (x n q - rMean x q) * (x n q - rMean x q)) cN
def rBn (n : Fin 20000) (q : Fin C) : EReal :=
  Ideal.div (x n q - rMean x q) (Ideal.sqrt (rVar x q + cEps)) * g q + b q
end BN
def rPe (n : Fin 20000) (l : Fin 128) : EReal :=
  max ((∑ q : Fin 4, rBn (rCs boxes) g4 be4 n q * posW l q) + posb l) 0
def rOe (n : Fin 20000) (q : Fin 200) : EReal := ∑ k : Fin 36, dist n k * We k q
def rOf (oe : Fin 20000 → Fin 200 → EReal) (pe : Fin 20000 → Fin 128 → EReal) (n : Fin 20000) (col : Fin 2376) : EReal :=
  if h : col.val < 2048 then feat n ⟨col.val, h⟩
  else if h' : col.val < 2248 then oe n ⟨col.val - 2048, by omega⟩ else pe n ⟨col.val - 2248, by omega⟩
def rZ (oe : Fin 20000 → Fin 200 → EReal) (pe : Fin 20000 → Fin 128 → EReal)
    (W1 : Fin 1024 → Fin 2376 → EReal) (b1 : Fin 1024 → EReal) (n : Fin 20000) (r : Fin 1024) : EReal :=
  (∑ col : Fin 2376, rOf feat oe pe n col * W1 r col) + b1 r
def rOut (z : Fin 20000 → Fin 1024 → EReal) (g2 be2 : Fin 1024 → EReal) (W2 : Fin 37 → Fin 1024 → EReal) (b2 : Fin 37 → EReal)
    (n : Fin 20000) (j : Fin 37) : EReal :=
  (∑ r : Fin 1024, max (rBn z g2 be2 n r) 0 * W2 j r) + b2 j
def outK : Fin 20000 → Fin 37 → EReal :=
  kOut (kZ (kPe boxes (kB5 (pack boxes) posW g4) (kCv (pack boxes) posW posb g4 be4)) dist feat (kWdt We W1) (kW1fp W1) b1)
    (kS (kZ (kPe boxes (kB5 (pack boxes) posW g4) (kCv (pack boxes) posW posb g4 be4)) dist feat (kWdt We W1) (kW1fp W1) b1))
    (kSS (kZ (kPe boxes (kB5 (pack boxes) posW g4) (kCv (pack boxes) posW posb g4 be4)) dist feat (kWdt We W1) (kW1fp W1) b1))
    g2 be2 W2 b2
def outR : Fin 20000 → Fin 37 → EReal :=
  rOut (rZ feat (rOe dist We) (rPe boxes g4 be4 posW posb) W1 b1) g2 be2 W2 b2
end Chains

def Real1 {A : ℕ} (x : Fin A → EReal) : Prop := ∀ i, ∃ r : ℝ, x i = (r : EReal)
def Real2 {A B : ℕ} (x : Fin A → Fin B → EReal) : Prop := ∀ i j, ∃ r : ℝ, x i j = (r : EReal)

end Cert.Spec

end
-- ==== Proof.Arr.lean ====
import Idealize.ShloMosaic.PureOps.Ideal
import Idealize.ShloMosaic.Lib.ValueIdx

namespace Cert.Spec

open Idealize.ShloMosaic Idealize.ShloMosaic.ValueIdx

abbrev a2 {A B : ℕ} (f : (⟨2, ![A, B]⟩ : Shape).Idx → EReal) : Fin A → Fin B → EReal := fun i j => f (ix2 i j)
abbrev a1 {A : ℕ} (f : (⟨1, ![A]⟩ : Shape).Idx → EReal) : Fin A → EReal := fun i => f (ix1 i)
abbrev row0 {B : ℕ} (f : (⟨2, ![1, B]⟩ : Shape).Idx → EReal) : Fin B → EReal := fun j => f (ix2 (0 : Fin 1) j)

end Cert.Spec
-- ==== Proof.LibMatmulPlain.lean ====
import Idealize.ShloMosaic.Lib.ValueIdx
import Idealize.ShloMosaic.PureOps.Ideal.Laws
import Idealize.ShloMosaic.Lib.StackMember

namespace Cert.Gcn

open Idealize.ShloMosaic Idealize.ShloMosaic.ValueIdx

variable {M K N : ℕ}

structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

theorem IsPlain.eq {D : DotDims ⟨2, ![M, K]⟩ ⟨2, ![K, N]⟩ ⟨2, ![M, N]⟩} (hD : IsPlain D) : D = DotDims.plain M K N := by
  obtain ⟨_, _, _, _, _, _, _⟩ := D
  obtain ⟨h1, h2, h3, h4, h5, h6⟩ := hD
  simp only at h1 h2 h3 h4 h5 h6
  subst h1 h2 h3 h4 h5 h6
  rfl

theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  rw [hD.eq]
  exact StackMember.dotGeneral_plain_apply prec A B p q

theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  rw [matmul_zero_eq_dotGeneral]
  exact dotGeneral_plain_apply D hD prec A B p q

end Cert.Gcn
-- ==== Proof.KI.GlueIdx.lean ====
import proofs.«145576_g33105607918058_cont_8to1_b_384_29_alg».proof.KernelIdeal
import proofs.«145576_g33105607918058_cont_8to1_b_384_29_alg».proof.Proof.Gen.KernelIdeal
import proofs.«145576_g33105607918058_cont_8to1_b_384_29_alg».proof.Proof.Spec
import proofs.«145576_g33105607918058_cont_8to1_b_384_29_alg».proof.Proof.Arr
import proofs.«145576_g33105607918058_cont_8to1_b_384_29_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic
open Idealize.ShloMosaic.ValueIdx Cert.Spec

theorem row_eq {n : ℕ} (x : (⟨1, ![n]⟩ : Shape).Idx → EReal)
    (h : (⟨1, ![n]⟩ : Shape).BroadcastsInDim ⟨2, ![1, n]⟩ (![1] : Fin 1 → Fin 2)) :
    row0 (B := n) (broadcastInDim ⟨2, ![1, n]⟩ ![1] h x) = a1 (A := n) x :=
  funext fun j => broadcastInDim_apply ![1] h x _ (ix1 j) fun a => match a with
    | ⟨0, _⟩ => by
      show j.val = if n = 1 then 0 else j.val
      split
      · have := j.isLt; omega
      · rfl

/-- Lane l of packed row a is component l % 5 of box 32 a + l / 5: both sit at row-major position 160 a + l. -/
theorem reshape_pack (x : Vec Ideal S20000x5 .f32) :
    a2 (A := 625) (B := 160) (shapeCast S625x160 x shapeCasts_S20000x5_S625x160) = pack (a2 (A := 20000) (B := 5) x) := by
  funext a l
  refine shapeCast_apply x shapeCasts_S20000x5_S625x160 (ix2 a l) _ ?_
  rw [Shape.rowMajor_val_two, Shape.rowMajor_val_two]
  show (32 * a.val + l.val / 5) * 5 + l.val % 5 = a.val * 160 + l.val
  omega

theorem trunc_37x1024 (x : FVec Ideal S37x1024 .f32) :
    a2 (A := 37) (B := 1024) (truncf (F := Ideal) .bf16 x bitsLt_bf16_f32) = a2 (A := 37) (B := 1024) x := rfl

/-- A column below 2048 falls in the first piece at the same column; a later one in the second piece, 2048 to the left. -/
theorem w1fp_eq (x : FVec Ideal S1024x2376 .f32) :
    a2 (A := 1024) (B := 2176) (truncf (F := Ideal) .bf16 (concatenate S1024x2176 1
      [⟨S1024x2048, extractStridedSlice S1024x2048 ![0, 0] x slices_S1024x2376_S1024x2048_0_0⟩,
       ⟨S1024x128, extractStridedSlice S1024x128 ![0, 2248] x slices_S1024x2376_S1024x128_0_2248⟩]
      concatenates_S1024x2048_S1024x128_S1024x2176_d1) bitsLt_bf16_f32) = kW1fp (a2 (A := 1024) (B := 2376) x) := by
  funext r col
  show truncf (F := Ideal) .bf16 _ bitsLt_bf16_f32 (ix2 r col) = _
  rw [truncf_apply]
  unfold kW1fp
  split
  · next hlt =>
    exact (concatenate_pair_apply_left (t := S1024x2176) (s₁ := S1024x2048) (s₂ := S1024x128) 1 _ _ _ _ (rfl : (2 : ℕ) = 2)
      (ix2 r (⟨col.val, hlt⟩ : Fin 2048)) (fun b => match b with | ⟨0, _⟩ => rfl | ⟨1, _⟩ => rfl)).trans
      (slice2_axis1_apply 0 x _ r _ ⟨col.val, by omega⟩ (Nat.zero_add _).symm)
  · next hge =>
    have hc : col.val - 2048 < 128 := by have := col.isLt; omega
    exact (concatenate_pair_apply_right (t := S1024x2176) (s₁ := S1024x2048) (s₂ := S1024x128) 1 _ _ _ _ (rfl : (2 : ℕ) = 2)
      (rfl : (2 : ℕ) = 2) (ix2 r (⟨col.val - 2048, hc⟩ : Fin 128))
      (fun b hb => match b, hb with | ⟨0, _⟩, _ => rfl | ⟨1, _⟩, hb => absurd rfl hb)
      (by show col.val - 2048 + 2048 = col.val; omega)).trans
      (slice2_axis1_apply 2248 x _ r _ ⟨col.val + 200, by omega⟩ (by show col.val + 200 = 2248 + (col.val - 2048); omega))

/-- The transposed slice at (q, r) is the weights at (r, 2048 + q). -/
theorem wdt_eq (we : FVec Ideal S36x200 .f32) (x : FVec Ideal S1024x2376 .f32) :
    a2 (A := 36) (B := 1024) (truncf (F := Ideal) .bf16 (Host.dotGeneral dot_S36x200_S200x1024_S36x1024_1_0_0_1_n_n none we
      (transpose S200x1024 [1, 0] (extractStridedSlice S1024x200 ![0, 2048] x slices_S1024x2376_S1024x200_0_2048) transposes_S1024x200_S200x1024_1_0)) bitsLt_bf16_f32)
      = kWdt (a2 (A := 36) (B := 200) we) (a2 (A := 1024) (B := 2376) x) := by
  funext k r
  show Host.dotGeneral _ none we _ (ix2 k r) = _
  refine (Cert.Gcn.dotGeneral_plain_apply _ ⟨rfl, rfl, rfl, rfl, rfl, rfl⟩ none we _ k r).trans ?_
  unfold kWdt
  exact Finset.sum_congr rfl fun q _ => congrArg (we (ix2 k q) * ·) ((transpose_ix2_apply _ _ q r).trans
    (slice2_axis1_apply 2048 x _ r q ⟨2048 + q.val, by omega⟩ rfl))

end Cert.KernelIdeal.Hand

end
-- ==== Proof.KI.Val0Stats.lean ====
import proofs.«145576_g33105607918058_cont_8to1_b_384_29_alg».proof.Proof.KI.Reg0Defs
import proofs.«145576_g33105607918058_cont_8to1_b_384_29_alg».proof.Proof.Spec
import proofs.«145576_g33105607918058_cont_8to1_b_384_29_alg».proof.Proof.Arr
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic
open Idealize.ShloMosaic.ValueIdx Cert.Spec

namespace Stats0

/-- A row's last `m` lanes followed by its first `k`, where `m + k = 160`, is the row shifted cyclically by `k` lanes. -/
theorem roll_apply {α : Type} {R m k : ℕ} (v : (⟨2, ![R, 160]⟩ : Shape).Idx → α)
    (h1 : (⟨2, ![R, 160]⟩ : Shape).Slices ![0, k] ⟨2, ![R, m]⟩)
    (h2 : (⟨2, ![R, 160]⟩ : Shape).Slices ![0, 0] ⟨2, ![R, k]⟩)
    (hc : Shape.Concatenates [⟨2, ![R, m]⟩, ⟨2, ![R, k]⟩] ⟨2, ![R, 160]⟩ 1)
    (a : Fin R) (l : Fin 160) :
    concatenate ⟨2, ![R, 160]⟩ 1
        [⟨⟨2, ![R, m]⟩, extractStridedSlice ⟨2, ![R, m]⟩ ![0, k] v h1⟩,
         ⟨⟨2, ![R, k]⟩, extractStridedSlice ⟨2, ![R, k]⟩ ![0, 0] v h2⟩] hc (ix2 a l)
      = v (ix2 a (lane l k)) := by
  have hmk : m + k = 160 := hc.2.2
  have hl := l.isLt
  by_cases hlm : l.val < m
  · exact (concatenate_pair_apply_left 1 _ _ hc (ix2 a l) rfl (ix2 a (⟨l.val, hlm⟩ : Fin m)) fun b => match b with | ⟨0, _⟩ => rfl | ⟨1, _⟩ => rfl).trans
      (slice2_axis1_apply k v h1 a _ _ (by show (l.val + k) % 160 = k + l.val; omega))
  · exact (concatenate_pair_apply_right 1 _ _ hc (ix2 a l) rfl rfl (ix2 a (⟨l.val - m, by omega⟩ : Fin k))
      (fun b hb => match b, hb with | ⟨0, _⟩, _ => rfl | ⟨1, _⟩, hb => absurd rfl hb)
      (by show l.val - m + m = l.val; omega)).trans
      (slice2_axis1_apply 0 v h2 a _ _ (by show (l.val + k) % 160 = 0 + (l.val - m); omega))

section
variable (src : FVec Ideal S625x160 .f32) (h : S625x160.Reduces [0] S160) (hφ : FKind.Formats .f32)
  (hacc : (0x00000000#32 : BitVec 32) = 0x00000000#32) (hs : S160.ShapeCasts S1x160)

theorem colsum_apply (u : Fin 1) (l : Fin 160) :
    shapeCast S1x160 (multiReduction .add [0] S160 src 0x00000000#32 h hφ hacc) hs (ix2 u l)
      = ∑ a : Fin 625, src (ix2 a l) := by
  refine (shapeCast_a_1a_apply _ hs u l).trans ((Ideal.multiReduction_add_single src 0x00000000#32 h hφ hacc (ix1 l)).trans ?_)
  exact Finset.sum_congr rfl fun a _ => congrArg src (funext fun c => match c with | ⟨0, _⟩ => rfl | ⟨1, _⟩ => rfl)

theorem lane_lane (l : Fin 160) (a b : ℕ) : lane (lane l a) b = lane l (a + b) :=
  Fin.ext (by show ((l.val + a) % 160 + b) % 160 = (l.val + (a + b)) % 160; omega)

/-- The sum over the first `N` of the 32 groups of five lanes, from lane `l` on, cyclically. -/
def gpart (N : ℕ) (v : Fin 160 → EReal) (l : Fin 160) : EReal := ∑ g : Fin N, v (lane l (5 * g.val))

theorem gpart_one (v : Fin 160 → EReal) (l : Fin 160) : gpart 1 v l = v l := by
  unfold gpart
  rw [Fin.sum_univ_one]
  have := l.isLt
  exact congrArg v (Fin.ext (by show (l.val + 5 * 0) % 160 = l.val; omega))

theorem gpart_double (N : ℕ) (v : Fin 160 → EReal) (l : Fin 160) :
    gpart N v l + gpart N v (lane l (5 * N)) = gpart (N + N) v l := by
  unfold gpart
  rw [Fin.sum_univ_add]
  refine congrArg₂ (· + ·) rfl (Finset.sum_congr rfl fun g _ => ?_)
  rw [lane_lane]
  show v (lane l (5 * N + 5 * g.val)) = v (lane l (5 * (N + g.val)))
  rw [Nat.mul_add]

/-- Row `w` holds, lane by lane, the sums of `f` over the first `N` groups. -/
abbrev Holds (N : ℕ) (w : FVec Ideal S1x160 .f32) (f : Fin 160 → EReal) : Prop := ∀ l : Fin 160, w (ix2 0 l) = gpart N f l

/-- Adding to a row of `N`-group sums its own shift by `5 N` lanes gives the row of `2 N`-group sums. -/
theorem step_apply {m : ℕ} (N : ℕ) (f : Fin 160 → EReal) (w : FVec Ideal S1x160 .f32) (hw : Holds N w f)
    (h1 : S1x160.Slices ![0, 5 * N] ⟨2, ![1, m]⟩) (h2 : S1x160.Slices ![0, 0] ⟨2, ![1, 5 * N]⟩)
    (hc : Shape.Concatenates [⟨2, ![1, m]⟩, ⟨2, ![1, 5 * N]⟩] S1x160 1) :
    Holds (N + N) (addf w (concatenate S1x160 1
        [⟨⟨2, ![1, m]⟩, extractStridedSlice ⟨2, ![1, m]⟩ ![0, 5 * N] w h1⟩,
         ⟨⟨2, ![1, 5 * N]⟩, extractStridedSlice ⟨2, ![1, 5 * N]⟩ ![0, 0] w h2⟩] hc)) f := fun l => by
  rw [addf_apply, roll_apply (R := 1) w h1 h2 hc (0 : Fin 1) l, hw, hw]
  exact gpart_double N f l

/-- The column sums of a matrix given entry by entry, as a row of one-group sums. -/
theorem base_apply (f : Fin 625 → Fin 160 → EReal) (hf : ∀ a l, src (ix2 a l) = f a l) :
    Holds 1 (shapeCast S1x160 (multiReduction .add [0] S160 src 0x00000000#32 h hφ hacc) hs) fun l' => ∑ a : Fin 625, f a l' := fun l => by
  rw [colsum_apply, gpart_one]
  exact Finset.sum_congr rfl fun a _ => hf a l

end

section
variable (x : Vec Ideal S625x160 .f32)

theorem pay4_apply (a : Fin 625) (l : Fin 160) :
    k0_pay4 x (ix2 a l) = whP (a2 x) a l := by
  unfold k0_pay4 k0_pay3
  rw [shapeCast_self, addf_apply, subf_apply, broadcast_apply, roll_apply (R := 625) x _ _ _ a l]
  rfl

theorem pay5_apply (a : Fin 625) (l : Fin 160) :
    k0_pay5 x (ix2 a l) = ctrP (a2 x) a l := by
  unfold k0_pay5 k0_pay3
  rw [shapeCast_self, addf_apply, mulf_apply, broadcast_apply, pay4_apply]
  rfl

theorem pay6_apply : Holds 2 (k0_pay6 x) fun l' => ∑ a : Fin 625, whP (a2 x) a l' * whP (a2 x) a l' := by
  unfold k0_pay6
  exact step_apply 1 _ _ (base_apply _ _ _ _ _ _ fun a l => by rw [mulf_apply, pay4_apply]) _ _ _

theorem pay7_apply : Holds 4 (k0_pay7 x) fun l' => ∑ a : Fin 625, ctrP (a2 x) a l' := by
  unfold k0_pay7
  exact step_apply 2 _ _ (step_apply 1 _ _ (base_apply _ _ _ _ _ _ (pay5_apply x)) _ _ _) _ _ _

theorem pay8_apply : Holds 4 (k0_pay8 x) fun l' => ∑ a : Fin 625, whP (a2 x) a l' := by
  unfold k0_pay8
  exact step_apply 2 _ _ (step_apply 1 _ _ (base_apply _ _ _ _ _ _ (pay4_apply x)) _ _ _) _ _ _

theorem pay9_apply : Holds 4 (k0_pay9 x) fun l' => ∑ a : Fin 625, ctrP (a2 x) a l' * ctrP (a2 x) a l' := by
  unfold k0_pay9
  exact step_apply 2 _ _ (step_apply 1 _ _ (base_apply _ _ _ _ _ _ fun a l => by rw [mulf_apply, pay5_apply]) _ _ _) _ _ _

theorem pay10_apply (l : Fin 160) :
    k0_pay10 x (ix2 0 l) = k0_pay6 x (ix2 0 (lane l 10)) := by
  unfold k0_pay10
  exact roll_apply (R := 1) (k0_pay6 x) _ _ _ (0 : Fin 1) l

end

/-- Lanes 1, 2 of one row then lanes 1, 2 of another, the rows given lane by lane. -/
theorem sel_apply (p r : FVec Ideal S1x160 .f32) (P R : Fin 160 → EReal)
    (hp : ∀ l : Fin 160, p (ix2 0 l) = P l) (hr : ∀ l : Fin 160, r (ix2 0 l) = R l)
    (h1 h2 : S1x160.Slices ![0, 1] S1x2) (hc : Shape.Concatenates [S1x2, S1x2] S1x4 1) (q : Fin 4) :
    concatenate S1x4 1 [⟨S1x2, extractStridedSlice S1x2 ![0, 1] p h1⟩, ⟨S1x2, extractStridedSlice S1x2 ![0, 1] r h2⟩] hc
        (ix2 0 q)
      = sel4 P R q := by
  have hq := q.isLt
  unfold sel4
  by_cases h : q.val < 2
  · rw [if_pos h, ← hp]
    exact (concatenate_pair_apply_left 1 _ _ hc (ix2 0 q) rfl
      (ix2 0 (⟨q.val, h⟩ : Fin 2)) fun b => match b with | ⟨0, _⟩ => rfl | ⟨1, _⟩ => rfl).trans
      (slice2_axis1_apply 1 p h1 (0 : Fin 1) _ _ (by show q.val + 1 = 1 + q.val; omega))
  · rw [if_neg h, ← hr]
    exact (concatenate_pair_apply_right 1 _ _ hc (ix2 0 q) rfl rfl
      (ix2 0 (⟨q.val - 2, by omega⟩ : Fin 2))
      (fun b hb => match b, hb with | ⟨0, _⟩, _ => rfl | ⟨1, _⟩, hb => absurd rfl hb)
      (by show q.val - 2 + 2 = q.val; omega)).trans
      (slice2_axis1_apply 1 r h2 (0 : Fin 1) _ _ (by show q.val - 1 = 1 + (q.val - 2); omega))

theorem pay11_apply (v40 v44 : FVec Ideal S1x160 .f32) (f g : Fin 160 → EReal)
    (h40 : Holds 4 v40 f) (h44 : Holds 4 v44 g) (q : Fin 4) :
    k0_pay11 (F := Ideal) v40 v44 (ix2 0 q) = Ideal.div (sel4 (gsum f) (gsum g) q) cN := by
  unfold k0_pay11
  rw [divf_apply, broadcast_apply]
  exact congrArg (Ideal.div · cN) (sel_apply _ _ _ _
    (step_apply 16 f _ (step_apply 8 f _ (step_apply 4 f v40 h40 _ _ _) _ _ _) _ _ _)
    (step_apply 16 g _ (step_apply 8 g _ (step_apply 4 g v44 h44 _ _ _) _ _ _) _ _ _) _ _ _ q)

theorem pay12_apply (v36 v48 v51 : FVec Ideal S1x160 .f32) (f g : Fin 160 → EReal)
    (h36 : Holds 2 v36 g) (h51 : ∀ l : Fin 160, v51 (ix2 0 l) = v36 (ix2 0 (lane l 10))) (h48 : Holds 4 v48 f) (q : Fin 4) :
    k0_pay12 (F := Ideal) v36 v48 v51 (ix2 0 q) = sel4 (gsum f) (gsum g) q := by
  have h52 : Holds 4 (addf v36 v51) g := fun l => by
    rw [addf_apply, h51, h36, h36]
    exact gpart_double 2 g l
  unfold k0_pay12
  exact sel_apply _ _ _ _
    (step_apply 16 f _ (step_apply 8 f _ (step_apply 4 f v48 h48 _ _ _) _ _ _) _ _ _)
    (step_apply 16 g _ (step_apply 8 g _ (step_apply 4 g _ h52 _ _ _) _ _ _) _ _ _) _ _ _ q

theorem ld_x0 (x0 : Vec Ideal S625x160 .f32) :
    View.ld x0 (Rect.unit (s := S625x160) ![0, 0] S625x160.size inb_S625x160_S625x160_0_0) = x0 :=
  View.ld_unit_zero (S := S625x160) (funext fun a => match a with | ⟨0, _⟩ => rfl | ⟨1, _⟩ => rfl) _ x0

end Stats0

open Stats0

theorem m105_eq (x0 : Vec Ideal S625x160 .f32) (q : Fin 4) :
    m105 (F := Ideal) x0 (ix2 0 q) = mu4 (a2 x0) q := by
  unfold m105
  rw [ld_x0]
  exact pay11_apply _ _ _ _ (pay7_apply x0) (pay8_apply x0) q
theorem m108_eq (x0 : Vec Ideal S625x160 .f32) (q : Fin 4) :
    m108 (F := Ideal) x0 (ix2 0 q) = sel4 (rc2 (a2 x0)) (rw2 (a2 x0)) q := by
  unfold m108
  rw [ld_x0]
  exact pay12_apply _ _ _ _ _ (pay6_apply x0) (pay10_apply x0) (pay9_apply x0) q
theorem pay13_eq (q : Fin 4) : (k0_pay13 (F := Ideal)) (ix2 0 q) = cN := rfl

end Cert.KernelIdeal.Hand

end
-- ==== Proof.KI.Val0.lean ====
import proofs.«145576_g33105607918058_cont_8to1_b_384_29_alg».proof.Proof.KI.Reg0Defs
import proofs.«145576_g33105607918058_cont_8to1_b_384_29_alg».proof.Proof.KI.Val0Stats
import proofs.«145576_g33105607918058_cont_8to1_b_384_29_alg».proof.Proof.Spec
import proofs.«145576_g33105607918058_cont_8to1_b_384_29_alg».proof.Proof.Arr
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe
open Idealize.ShloMosaic.ValueIdx Cert.Spec

variable {F : FTy → Type} [FloatOps F]
variable (V : (c : Dev nD) → (b : Ref sig .tc) → Buf (Elt F) ((c : Thread nD τ).loc b))

namespace Fold0

theorem iblk0_eq (c : Dev nD) (t : Fin cfg0.N) :
    iblk0 V c 0 t = V c main_v0 ∧ iblk0 V c 1 t = V c main_arg7 ∧ iblk0 V c 2 t = V c main_v1 ∧
      iblk0 V c 3 t = V c main_v2 ∧ iblk0 V c 4 t = V c main_v3 := by
  refine ⟨?_, ?_, ?_, ?_, ?_⟩ <;>
  · unfold iblk0
    funext j
    refine congrArg (V c _) (Shape.idx_ext₂ ?_ ?_) <;> exact (Nat.zero_add _).trans (Nat.one_mul _)

theorem hz2 : (![0, 0] : Fin 2 → Nat) = fun _ => 0 := funext fun a => by fin_cases a <;> rfl

/-- Five one-row matrices stacked: the stack equals `r` row by row as soon as each operand's row does. -/
theorem concat5_row {α : Type} (v0 v1 v2 v3 v4 : S1x128.Idx → α)
    (h : Shape.Concatenates (([⟨S1x128, v0⟩, ⟨S1x128, v1⟩, ⟨S1x128, v2⟩, ⟨S1x128, v3⟩, ⟨S1x128, v4⟩] : List ((s : Shape) × (s.Idx → α))).map (·.1)) S5x128 0)
    (l : Fin 128) (r : Fin 5 → α) (h0 : v0 (ix2 0 l) = r 0) (h1 : v1 (ix2 0 l) = r 1)
    (h2 : v2 (ix2 0 l) = r 2) (h3 : v3 (ix2 0 l) = r 3) (h4 : v4 (ix2 0 l) = r 4) (k : Fin 5) :
    concatenate S5x128 0 [⟨S1x128, v0⟩, ⟨S1x128, v1⟩, ⟨S1x128, v2⟩, ⟨S1x128, v3⟩, ⟨S1x128, v4⟩] h (ix2 k l) = r k := by
  have hi : ∀ (k : Fin 5) (b : Fin 2), b ≠ 0 → (ix2 (0 : Fin 1) l b).val = (ix2 k l b).val :=
    fun k b hb => match b, hb with | ⟨0, _⟩, hb => absurd rfl hb | ⟨1, _⟩, _ => rfl
  match k with
  | ⟨0, hk⟩ => exact (concatenate_apply_piece 0 _ h _ 0 hk _ _ rfl rfl _ rfl _ (hi _) rfl).trans h0
  | ⟨1, hk⟩ => exact (concatenate_apply_piece 0 _ h _ 1 hk _ _ rfl rfl _ rfl _ (hi _) rfl).trans h1
  | ⟨2, hk⟩ => exact (concatenate_apply_piece 0 _ h _ 2 hk _ _ rfl rfl _ rfl _ (hi _) rfl).trans h2
  | ⟨3, hk⟩ => exact (concatenate_apply_piece 0 _ h _ 3 hk _ _ rfl rfl _ rfl _ (hi _) rfl).trans h3
  | ⟨4, hk⟩ => exact (concatenate_apply_piece 0 _ h _ 4 hk _ _ rfl rfl _ rfl _ (hi _) rfl).trans h4

theorem rowSum4_apply (src : FVec Ideal S128x4 .f32) (h : S128x4.Reduces [1] S128) (hφ : FKind.Formats .f32)
    (hacc : (0x00000000#32 : BitVec 32) = FKind.add.neutral .f32 hφ) (l : Fin 128) :
    multiReduction (F := Ideal) .add [1] S128 src 0x00000000#32 h hφ hacc (ix1 l) = ∑ q : Fin 4, src (ix2 l q) :=
  (Ideal.multiReduction_add_single src 0x00000000#32 h hφ hacc (ix1 l)).trans
    (Finset.sum_congr rfl fun q _ => congrArg src (funext fun a => match a with | ⟨0, _⟩ => rfl | ⟨1, _⟩ => rfl))

section Entries
variable (x0 : Vec Ideal S625x160 .f32)

/-- The sum of squares over the batch size is the mean of squares, so the scale row is the specification's. -/
theorem scale_eq (x3 : Vec Ideal S1x4 .f32) (q : Fin 4) :
    k0_pay14 (m105 x0) (m108 x0) k0_pay13 x3 (ix2 0 q) = scale4 (a2 x0) (row0 x3) q := by
  unfold k0_pay14
  rw [shapeCast_self]
  show _ * Ideal.rsqrt (Ideal.div (m108 x0 (ix2 0 q)) (k0_pay13 (F := Ideal) (ix2 0 q)) - m105 x0 (ix2 0 q) * m105 x0 (ix2 0 q) + _) = _
  rw [m105_eq, m108_eq, pay13_eq]
  rfl

theorem a4t_eq (x1 : Vec Ideal S128x4 .f32) (x3 : Vec Ideal S1x4 .f32) (q : Fin 4) (l : Fin 128) :
    k0_pay15 (m105 x0) (m108 x0) k0_pay13 x3 x1 (ix2 q l) = a4t (a2 x0) (a2 x1) (row0 x3) q l := by
  unfold k0_pay15
  rw [transpose_ix2_apply, mulf_apply, broadcastTo_1b_ab_apply, scale_eq]
  rfl

end Entries

end Fold0

open Fold0

theorem final0_5 (c : Dev nD) :
    (dat0 V c).arrAt 5 cfg0.N = out0_5 (V c main_v0) (V c main_arg7) (V c main_v2) := by
  refine (dat0 V c).arrAt_eq_of_cover 5 _ (fun t _ => ?_) (fun i => ⟨t0_0, flush0_5 _, ?_⟩)
  · obtain ⟨h0, h1, h2, h3, h4⟩ := iblk0_eq V c t
    show (cfg0.win 5).cut (grid0.coords t) ((dat0 V c).after 5 t) = _
    rw [after0_5, h0, h1, h3]
    funext j
    refine congrArg (out0_5 _ _ _) (Shape.idx_ext₂ ?_ ?_) <;> exact ((Nat.zero_add _).trans (Nat.one_mul _)).symm
  · show i ∈ ((View.whole main_v4_0).slice (win0_5.rect t0_0)).set
    rw [View.set_slice_whole]
    exact View.mem_set_unit_zero (funext fun a => Nat.zero_mul _) _ i
theorem final0_6 (c : Dev nD) :
    (dat0 V c).arrAt 6 cfg0.N = out0_6 (V c main_v0) (V c main_arg7) (V c main_v1) (V c main_v2) (V c main_v3) := by
  refine (dat0 V c).arrAt_eq_of_cover 6 _ (fun t _ => ?_) (fun i => ⟨t0_0, flush0_6 _, ?_⟩)
  · obtain ⟨h0, h1, h2, h3, h4⟩ := iblk0_eq V c t
    show (cfg0.win 6).cut (grid0.coords t) ((dat0 V c).after 6 t) = _
    rw [after0_6, h0, h1, h2, h3, h4]
    funext j
    refine congrArg (out0_6 _ _ _ _ _) (Shape.idx_ext₂ ?_ ?_) <;> exact ((Nat.zero_add _).trans (Nat.one_mul _)).symm
  · show i ∈ ((View.whole main_v4_1).slice (win0_6.rect t0_0)).set
    rw [View.set_slice_whole]
    exact View.mem_set_unit_zero (funext fun a => Nat.zero_mul _) _ i
theorem out0_5_eq (x0 : Vec Ideal S625x160 .f32) (x1 : Vec Ideal S128x4 .f32) (x3 : Vec Ideal S1x4 .f32) :
    a2 (A := 5) (B := 128) (out0_5 (F := Ideal) x0 x1 x3) = kB5 (a2 (A := 625) (B := 160) x0) (a2 (A := 128) (B := 4) x1) (row0 (B := 4) x3) := by
  funext k l
  show out0_5 (F := Ideal) x0 x1 x3 (ix2 k l) = _
  unfold out0_5
  rw [View.canon_unit_zero hz2]
  unfold val0_5 m126 k0_pay1
  simp only [View.ld_unit_zero (S := S1x4) hz2, View.ld_unit_zero (S := S128x4) hz2]
  refine concat5_row _ _ _ _ _ _ l (kB5 _ _ _ · l) Ideal.ofBits_zero_f32 ?_ ?_ ?_ ?_ k <;>
  · simp only [k0_pay18, k0_pay19, k0_pay20, k0_pay21, addf_apply, subf_apply, mulf_apply, broadcast_apply,
      slice2_axis0_eq, a4t_eq]
    rfl
theorem out0_6_eq (x0 : Vec Ideal S625x160 .f32) (x1 : Vec Ideal S128x4 .f32) (x2 : Vec Ideal S1x128 .f32) (x3 : Vec Ideal S1x4 .f32) (x4 : Vec Ideal S1x4 .f32) :
    row0 (B := 128) (out0_6 (F := Ideal) x0 x1 x2 x3 x4)
      = kCv (a2 (A := 625) (B := 160) x0) (a2 (A := 128) (B := 4) x1) (row0 (B := 128) x2) (row0 (B := 4) x3) (row0 (B := 4) x4) := by
  funext l
  show out0_6 (F := Ideal) x0 x1 x2 x3 x4 (ix2 0 l) = _
  unfold out0_6
  rw [View.canon_unit_zero hz2]
  unfold val0_6 m126 k0_pay2 k0_pay16
  simp only [View.ld_unit_zero (S := S1x4) hz2, View.ld_unit_zero (S := S128x4) hz2, View.ld_unit_zero (S := S1x128) hz2,
    addf_apply, mulf_apply, broadcast_apply, slice2_axis0_eq, shapeCast_self, shapeCast_a_1a_apply, a4t_eq]
  erw [rowSum4_apply]
  simp only [mulf_apply, subf_apply, broadcastTo_1b_ab_apply, scale_eq, m105_eq]
  rfl

end Cert.KernelIdeal.Hand

end
-- ==== Proof.KI.Val1Blk.lean ====
import proofs.«145576_g33105607918058_cont_8to1_b_384_29_alg».proof.Proof.KI.Reg1Defs
import proofs.«145576_g33105607918058_cont_8to1_b_384_29_alg».proof.Proof.Spec
import proofs.«145576_g33105607918058_cont_8to1_b_384_29_alg».proof.Proof.Arr
import proofs.«145576_g33105607918058_cont_8to1_b_384_29_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

variable (x0 : Vec Ideal S1000x5 .f32) (x1 : Vec Ideal S1000x36 .f32) (x2 : Vec Ideal S1000x2048 .f32) (x3 : Vec Ideal S5x128 .f32) (x4 : Vec Ideal S1x128 .f32) (x5 : Vec Ideal S36x1024 .bf16) (x6 : Vec Ideal S1024x2176 .bf16) (x7 : Vec Ideal S1x1024 .f32)

def peBlk (i : Fin 1000) (l : Fin 128) : EReal :=
  max ((∑ k : Fin 5, x0 (ix2 i k) * x3 (ix2 k l)) + x4 (ix2 (0 : Fin 1) l)) 0

def zBlk (i : Fin 1000) (r : Fin 1024) : EReal :=
  ((∑ col : Fin 2176, (if h : col.val < 2048 then x2 (ix2 i (⟨col.val, h⟩ : Fin 2048)) else peBlk x0 x3 x4 i ⟨col.val - 2048, by omega⟩) * x6 (ix2 r col))
    + ∑ k : Fin 36, x1 (ix2 i k) * x5 (ix2 k r)) + x7 (ix2 (0 : Fin 1) r)

namespace Val1Blk

/-- A product that contracts the second axis of both operands pairs row p of the left with row q of the right. -/
theorem matmul_rowsByRows_apply {M K N : ℕ} {φ₁ φ₂ : FTy} (D : DotDims ⟨2, ![M, K]⟩ ⟨2, ![N, K]⟩ ⟨2, ![M, N]⟩)
    (hD : D.lhsContracting = [1] ∧ D.rhsContracting = [1] ∧ D.lhsNonContracting = [0] ∧ D.rhsNonContracting = [0] ∧ D.lhsBatch = [] ∧ D.rhsBatch = [])
    (prec : Option ContractPrecision) (A : FVec Ideal ⟨2, ![M, K]⟩ φ₁) (B : FVec Ideal ⟨2, ![N, K]⟩ φ₂) (p : Fin M) (q : Fin N) :
    matmul D prec A B (constant (F := Ideal) ⟨2, ![M, N]⟩ .f32 0x00000000#32) (ix2 p q) = ∑ l : Fin K, A (ix2 p l) * B (ix2 q l) := by
  obtain ⟨lc, rc, ln, rn, lb, rb, wf⟩ := D
  obtain ⟨h1, h2, h3, h4, h5, h6⟩ := hD
  simp only at h1 h2 h3 h4 h5 h6
  subst h1 h2 h3 h4 h5 h6
  simp only [matmul]
  rw [Ideal.matmul_constant_zero_apply]
  set D : DotDims ⟨2, ![M, K]⟩ ⟨2, ![N, K]⟩ ⟨2, ![M, N]⟩ := ⟨[1], [1], [0], [0], [], [], wf⟩
  rw [← Equiv.sum_comp (contrEquiv1 D K rfl rfl).symm]
  refine Finset.sum_congr rfl fun l _ => ?_
  have hk := contrEquiv1_symm_val D K rfl rfl l
  have h0 : ∀ k, (D.lhsIdx (ix2 p q) k 0).val = p.val ∧ (D.rhsIdx (ix2 p q) k 0).val = q.val := fun k => by
    unfold DotDims.lhsIdx DotDims.rhsIdx
    rw [dif_neg List.not_mem_nil, dif_pos (List.mem_singleton_self _), dif_neg List.not_mem_nil, dif_pos (List.mem_singleton_self _)]
    exact ⟨rfl, rfl⟩
  rw [show D.lhsIdx (ix2 p q) _ = ix2 p l from Shape.idx_ext₂ (h0 _).1 ((D.lhsIdx_val_of_single rfl _ _).trans hk),
    show D.rhsIdx (ix2 p q) _ = ix2 q l from Shape.idx_ext₂ (h0 _).2 ((D.rhsIdx_val_of_single rfl _ _).trans hk)]

/-- Two arrays joined along the columns read, at column c, the first below its width and the second past it. -/
theorem concat_cols_apply {α : Type} {R A B C : ℕ} (x₁ : (⟨2, ![R, A]⟩ : Shape).Idx → α) (x₂ : (⟨2, ![R, B]⟩ : Shape).Idx → α)
    (h : Shape.Concatenates [⟨2, ![R, A]⟩, ⟨2, ![R, B]⟩] ⟨2, ![R, C]⟩ 1) (hC : C = A + B) (i : Fin R) (c : Fin C) :
    concatenate ⟨2, ![R, C]⟩ 1 [⟨⟨2, ![R, A]⟩, x₁⟩, ⟨⟨2, ![R, B]⟩, x₂⟩] h (ix2 i c)
      = if hc : c.val < A then x₁ (ix2 i ⟨c.val, hc⟩) else x₂ (ix2 i ⟨c.val - A, by omega⟩) := by
  by_cases hc : c.val < A
  · rw [dif_pos hc]
    refine concatenate_pair_apply_left 1 x₁ x₂ h (ix2 i c) rfl (ix2 i ⟨c.val, hc⟩) fun b => ?_
    match b with
    | ⟨0, _⟩ => rfl
    | ⟨1, _⟩ => rfl
  · rw [dif_neg hc]
    refine concatenate_pair_apply_right 1 x₁ x₂ h (ix2 i c) rfl rfl (ix2 i ⟨c.val - A, by omega⟩) (fun b hb => ?_) ?_
    · match b with
      | ⟨0, _⟩ => rfl
      | ⟨1, _⟩ => exact absurd rfl hb
    · show c.val - A + A = c.val
      omega

theorem hz2 : (![0, 0] : Fin 2 → Nat) = fun _ => 0 := funext fun a => by fin_cases a <;> rfl

theorem ld2 {Val : EltTy → Type} {A B : ℕ} {e : EltTy} (inb) (X : (⟨2, ![A, B]⟩ : Shape).Idx → Val e) :
    View.ld X (Rect.unit ![0, 0] ![A, B] inb) = X := View.ld_unit_zero (S := ⟨2, ![A, B]⟩) hz2 inb X

theorem pay3_apply (i : Fin 1000) (r : Fin 1024) :
    k1_pay3 (F := Ideal) x0 x3 x4 x2 x6 x1 x5 x7 (ix2 i r) = zBlk x0 x1 x2 x3 x4 x5 x6 x7 i r := by
  unfold k1_pay3
  rw [addf_apply, addf_apply, broadcastTo_1b_ab_apply]
  simp only [shapeCast_self]
  rw [Cert.Gcn.matmul_plain_apply dot_S1000x36_S36x1024_S1000x1024_1_0_0_1_n_n ⟨rfl, rfl, rfl, rfl, rfl, rfl⟩,
    matmul_rowsByRows_apply dot_S1000x2176_S1024x2176_S1000x1024_1_1_0_0_n_n ⟨rfl, rfl, rfl, rfl, rfl, rfl⟩]
  unfold zBlk
  refine congrArg₂ (· + ·) (congrArg₂ (· + ·) (Finset.sum_congr rfl fun col _ => ?_) (Finset.sum_congr rfl fun k _ => rfl)) rfl
  rw [concat_cols_apply (A := 2048) (B := 128) (C := 2176) _ _ _ rfl]
  refine congrArg (· * x6 (ix2 r col)) ?_
  by_cases hc : col.val < 2048
  · rw [dif_pos hc, dif_pos hc]
    rfl
  · rw [dif_neg hc, dif_neg hc, truncf_apply, maximumf_apply, addf_apply, broadcast_apply, broadcastTo_1b_ab_apply, shapeCast_self, shapeCast_self,
      Cert.Gcn.matmul_plain_apply dot_S1000x5_S5x128_S1000x128_1_0_0_1_n_n ⟨rfl, rfl, rfl, rfl, rfl, rfl⟩]
    show max (_ + _) (Ideal.ofBits .f32 0x00000000#32) = _
    rw [Ideal.ofBits_zero_f32]
    rfl

theorem colsum_apply (src : FVec Ideal S1000x1024 .f32) (h : S1000x1024.Reduces [0] S1024) (hφ : FKind.Formats .f32)
    (hacc : (0x00000000#32 : BitVec FTy.f32.bits) = FKind.add.neutral .f32 hφ) (r : Fin 1024) :
    multiReduction (F := Ideal) .add [0] S1024 src 0x00000000#32 h hφ hacc (ix1 r) = ∑ i : Fin 1000, src (ix2 i r) :=
  (Ideal.multiReduction_add_single src 0x00000000#32 h hφ hacc (ix1 r)).trans
    (Finset.sum_congr rfl fun k _ => congrArg src (Shape.idx_ext₂ rfl rfl))

end Val1Blk

open Val1Blk

variable (i : Fin 1000) (r : Fin 1024)

theorem zb1_apply : zb1 (F := Ideal) x0 x1 x2 x3 x4 x5 x6 x7 (ix2 i r) = zBlk x0 x1 x2 x3 x4 x5 x6 x7 i r := by
  simp only [zb1, k1_pay4, ld2, truncf_apply, pay3_apply]

theorem zs1_apply : zs1 (F := Ideal) x0 x1 x2 x3 x4 x5 x6 x7 (ix2 (0 : Fin 1) r) = ∑ i : Fin 1000, zBlk x0 x1 x2 x3 x4 x5 x6 x7 i r := by
  simp only [zs1, k1_pay5, ld2, shapeCast_a_1a_apply]
  exact (colsum_apply _ _ _ _ r).trans (Finset.sum_congr rfl fun i _ => pay3_apply x0 x1 x2 x3 x4 x5 x6 x7 i r)

theorem zss1_apply : zss1 (F := Ideal) x0 x1 x2 x3 x4 x5 x6 x7 (ix2 (0 : Fin 1) r)
    = ∑ i : Fin 1000, zBlk x0 x1 x2 x3 x4 x5 x6 x7 i r * zBlk x0 x1 x2 x3 x4 x5 x6 x7 i r := by
  simp only [zss1, k1_pay6, ld2, shapeCast_a_1a_apply]
  exact (colsum_apply _ _ _ _ r).trans (Finset.sum_congr rfl fun i _ => by rw [mulf_apply, pay3_apply])

end Cert.KernelIdeal.Hand

end
-- ==== Proof.KI.Val1.lean ====
import proofs.«145576_g33105607918058_cont_8to1_b_384_29_alg».proof.Proof.KI.Reg1Defs
import proofs.«145576_g33105607918058_cont_8to1_b_384_29_alg».proof.Proof.KI.Val1Blk
import proofs.«145576_g33105607918058_cont_8to1_b_384_29_alg».proof.Proof.Spec
import proofs.«145576_g33105607918058_cont_8to1_b_384_29_alg».proof.Proof.Arr
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL Idealize.ShloMosaic.ValueIdx Cert.Spec
open Idealize.ShloMosaic.Pipeline (Window)

namespace Reg1Val

open Val1Blk

theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0) :=
  (by decide +kernel : ∀ t : Fin grid1.N, _)

def t20 (t : Fin cfg1.N) : Fin 20 := Fin.cast N_1 t

theorem h19 : 19 < cfg1.N := by rw [show cfg1.N = 20 from N_1]; decide

variable (V : (c : Dev nD) → (b : Ref sig .tc) → Buf (Elt Ideal) ((c : Thread nD τ).loc b)) (c : Dev nD) (t : Fin cfg1.N)

theorem emb_row (w : Window sig grid1) (y : (w.xblock (grid1.coords t)).Idx) (a : Fin w.shape.rank)
    (h : w.index t a = t.val) (hs : w.size a = 1000) : ((w.rect t).emb y a : ℕ) = 1000 * t.val + y a := by
  rw [w.rect_emb_val, h, hs, Nat.mul_comm]

abbrev zB (i : Fin 1000) (r : Fin 1024) : EReal :=
  zBlk (iblk1 V c 0 t) (iblk1 V c 1 t) (iblk1 V c 2 t) (iblk1 V c 3 t) (iblk1 V c 4 t) (iblk1 V c 5 t) (iblk1 V c 6 t) (iblk1 V c 7 t) i r

theorem iblk1_rows (i : Fin 1000) :
    (∀ k, iblk1 V c 0 t (ix2 i k) = V c main_arg1 (ix2 (row (t20 t) i) k))
    ∧ (∀ k, iblk1 V c 1 t (ix2 i k) = V c main_arg0 (ix2 (row (t20 t) i) k))
    ∧ ∀ k, iblk1 V c 2 t (ix2 i k) = V c main_arg2 (ix2 (row (t20 t) i) k) := by
  obtain ⟨⟨a0, a1⟩, ⟨b0, b1⟩, ⟨d0, d1⟩, -⟩ := idx_facts1 t
  exact ⟨fun k => congrArg (V c main_arg1) (Shape.idx_ext₂ (emb_row t win1_0 _ _ a0 rfl) (win1_0.rect_emb_val_of_index_zero t _ a1 _)),
    fun k => congrArg (V c main_arg0) (Shape.idx_ext₂ (emb_row t win1_1 _ _ b0 rfl) (win1_1.rect_emb_val_of_index_zero t _ b1 _)),
    fun k => congrArg (V c main_arg2) (Shape.idx_ext₂ (emb_row t win1_2 _ _ d0 rfl) (win1_2.rect_emb_val_of_index_zero t _ d1 _))⟩

theorem iblk1_whole : iblk1 V c 3 t = V c main_v4_0 ∧ iblk1 V c 4 t = V c main_v4_1 ∧ iblk1 V c 5 t = V c main_v12
    ∧ iblk1 V c 6 t = V c main_v8 ∧ iblk1 V c 7 t = V c main_v14 := by
  obtain ⟨-, -, -, ⟨a0, a1⟩, ⟨b0, b1⟩, ⟨d0, d1⟩, ⟨e0, e1⟩, ⟨f0, f1⟩, -⟩ := idx_facts1 t
  exact ⟨funext fun j => congrArg (V c main_v4_0) (Shape.idx_ext₂ (win1_3.rect_emb_val_of_index_zero t _ a0 j) (win1_3.rect_emb_val_of_index_zero t _ a1 j)),
    funext fun j => congrArg (V c main_v4_1) (Shape.idx_ext₂ (win1_4.rect_emb_val_of_index_zero t _ b0 j) (win1_4.rect_emb_val_of_index_zero t _ b1 j)),
    funext fun j => congrArg (V c main_v12) (Shape.idx_ext₂ (win1_5.rect_emb_val_of_index_zero t _ d0 j) (win1_5.rect_emb_val_of_index_zero t _ d1 j)),
    funext fun j => congrArg (V c main_v8) (Shape.idx_ext₂ (win1_6.rect_emb_val_of_index_zero t _ e0 j) (win1_6.rect_emb_val_of_index_zero t _ e1 j)),
    funext fun j => congrArg (V c main_v14) (Shape.idx_ext₂ (win1_7.rect_emb_val_of_index_zero t _ f0 j) (win1_7.rect_emb_val_of_index_zero t _ f1 j))⟩

abbrev Z1 : Fin 20000 → Fin 1024 → EReal :=
  kZ (kPe (a2 (V c main_arg1)) (a2 (V c main_v4_0)) (row0 (V c main_v4_1))) (a2 (V c main_arg0)) (a2 (V c main_arg2)) (a2 (V c main_v12))
    (a2 (V c main_v8)) (row0 (V c main_v14))

theorem zBlk_blocks (i : Fin 1000) (r : Fin 1024) : zB V c t i r = Z1 V c (row (t20 t) i) r := by
  obtain ⟨h0, h1, h2⟩ := iblk1_rows V c t i
  obtain ⟨h3, h4, h5, h6, h7⟩ := iblk1_whole V c t
  unfold zB zBlk peBlk Z1 kZ kPe xcat
  simp only [h0, h1, h2, h3, h4, h5, h6, h7]

abbrev G8 : S20000x1024.Idx → EReal := fun j => Z1 V c (j 0) (j 1)

theorem flushed8_eq : (dat1 V c).flushed 8 t = ((cfg1.win 8).blk t).view.read (Elt Ideal) (G8 V c) := by
  obtain ⟨-, -, -, -, -, -, -, -, ⟨e0, e1⟩, -⟩ := idx_facts1 t
  show (cfg1.win 8).cut (grid1.coords t) ((dat1 V c).after 8 t) = _
  rw [after1_8]
  unfold out1_8
  rw [View.canon_unit_zero hz2]
  funext j
  obtain ⟨p, q, rfl⟩ : ∃ (p : Fin 1000) (q : Fin 1024), j = ix2 p q := ⟨_, _, eq_ix2 j⟩
  refine (zb1_apply _ _ _ _ _ _ _ _ p q).trans ((zBlk_blocks V c t p q).trans ?_)
  rw [View.read_apply]
  exact congrArg₂ (Z1 V c) (Fin.ext (emb_row t win1_8 (ix2 p q) _ e0 rfl).symm) (Fin.ext (win1_8.rect_emb_val_of_index_zero t _ e1 (ix2 p q)).symm)

theorem final8 : (dat1 V c).arrAt 8 cfg1.N = G8 V c :=
  (dat1 V c).arrAt_eq_of_cover 8 _ (fun t _ => flushed8_eq V c t) fun i => by
    have hi : (i 0).val < 20000 := (i 0).isLt
    have ht : (i 0).val / 1000 < cfg1.N := by rw [show cfg1.N = 20 from N_1]; omega
    obtain ⟨-, -, -, -, -, -, -, -, ⟨e0, e1⟩, -⟩ := idx_facts1 ⟨_, ht⟩
    refine ⟨⟨_, ht⟩, flush1_8 _, ?_⟩
    have h := ((cfg1.win 8).blk ⟨_, ht⟩).view.emb_mem_set (ix2 ⟨(i 0).val % 1000, Nat.mod_lt _ (by decide)⟩ (i 1))
    rwa [show ((cfg1.win 8).blk ⟨_, ht⟩).view.emb _ = i from Shape.idx_ext₂
      ((emb_row ⟨_, ht⟩ win1_8 _ _ e0 rfl).trans (Nat.div_add_mod _ 1000)) (win1_8.rect_emb_val_of_index_zero ⟨_, ht⟩ _ e1 _)] at h

/-- The sum over the rows of block n of f at column r of the specification (nothing past the 20 blocks). -/
def blkSum (f : EReal → EReal) (r : Fin 1024) (n : ℕ) : EReal :=
  if h : n < 20 then ∑ i : Fin 1000, f (Z1 V c (row ⟨n, h⟩ i) r) else 0

theorem zs_blocks (f : EReal → EReal) (r : Fin 1024) : ∑ i : Fin 1000, f (zB V c t i r) = blkSum V c f r t.val := by
  have ht : t.val < 20 := (t20 t).isLt
  unfold blkSum
  rw [dif_pos ht]
  exact Finset.sum_congr rfl fun i _ => congrArg f (zBlk_blocks V c t i r)

theorem outA_apply (x0 x1 x2 x3 x4 x5 x6 x7) (r : Fin 1024) : out1_9_A x0 x1 x2 x3 x4 x5 x6 x7 (ix2 (0 : Fin 1) r) = ∑ i : Fin 1000, zBlk x0 x1 x2 x3 x4 x5 x6 x7 i r
    ∧ out1_10_A x0 x1 x2 x3 x4 x5 x6 x7 (ix2 (0 : Fin 1) r) = ∑ i : Fin 1000, zBlk x0 x1 x2 x3 x4 x5 x6 x7 i r * zBlk x0 x1 x2 x3 x4 x5 x6 x7 i r := by
  simp only [out1_9_A, out1_10_A, View.canon_unit_zero (S := S1x1024) hz2, zs1_apply, zss1_apply, and_self]

theorem outB_apply (x0 x1 x2 x3 x4 x5 x6 x7 xo) (r : Fin 1024) : out1_9_B x0 x1 x2 x3 x4 x5 x6 x7 xo (ix2 (0 : Fin 1) r) = xo (ix2 (0 : Fin 1) r) + ∑ i : Fin 1000, zBlk x0 x1 x2 x3 x4 x5 x6 x7 i r
    ∧ out1_10_B x0 x1 x2 x3 x4 x5 x6 x7 xo (ix2 (0 : Fin 1) r) = xo (ix2 (0 : Fin 1) r) + ∑ i : Fin 1000, zBlk x0 x1 x2 x3 x4 x5 x6 x7 i r * zBlk x0 x1 x2 x3 x4 x5 x6 x7 i r := by
  simp only [out1_9_B, out1_10_B, k1_pay1, k1_pay2, View.canon_unit_zero (S := S1x1024) hz2, View.ld_unit_zero (S := S1x1024) hz2, shapeCast_self, addf_apply, zs1_apply, zss1_apply, and_self]

/-- A row that starts as the first block's sums of f and adds each later block's holds, after point n, the sums over blocks 0 … n. -/
theorem acc_apply (f : EReal → EReal) (r : Fin 1024) (a : (n : ℕ) → n < cfg1.N → Vec Ideal S1x1024 .f32)
    (h0 : ∀ hn, a 0 hn (ix2 (0 : Fin 1) r) = ∑ i : Fin 1000, f (zB V c ⟨0, hn⟩ i r))
    (hs : ∀ n hn, a (n + 1) hn (ix2 (0 : Fin 1) r) = a n (Nat.lt_of_succ_lt hn) (ix2 (0 : Fin 1) r) + ∑ i : Fin 1000, f (zB V c ⟨n + 1, hn⟩ i r)) :
    ∀ (n : ℕ) (hn : n < cfg1.N), a n hn (ix2 (0 : Fin 1) r) = ∑ m ∈ Finset.range (n + 1), blkSum V c f r m
  | 0, hn => by rw [h0, Finset.sum_range_one]; exact zs_blocks V c ⟨0, hn⟩ f r
  | n + 1, hn => by
    rw [hs, acc_apply f r a h0 hs n, Finset.sum_range_succ _ (n + 1)]
    exact congrArg _ (zs_blocks V c ⟨n + 1, hn⟩ f r)

theorem emb_whole (j : S1x1024.Idx) : ((cfg1.win 9).blk t).view.emb j = j ∧ ((cfg1.win 10).blk t).view.emb j = j := by
  obtain ⟨-, -, -, -, -, -, -, -, -, ⟨e0, e1⟩, ⟨f0, f1⟩⟩ := idx_facts1 t
  exact ⟨Shape.idx_ext₂ (win1_9.rect_emb_val_of_index_zero t _ e0 j) (win1_9.rect_emb_val_of_index_zero t _ e1 j),
    Shape.idx_ext₂ (win1_10.rect_emb_val_of_index_zero t _ f0 j) (win1_10.rect_emb_val_of_index_zero t _ f1 j)⟩

theorem final_last (w : Fin cfg1.W) (G : Buf (Elt Ideal) ((cfg1.win w).arr.view.loc (c.tc : Thread nD τ)))
    (hfl : ∀ t, (cfg1.win w).flush t = true ↔ t.val % 20 = 19)
    (hG : (dat1 V c).flushed w ⟨19, h19⟩ = ((cfg1.win w).blk ⟨19, h19⟩).view.read (Elt Ideal) G)
    (hc : ∀ i, i ∈ ((cfg1.win w).blk ⟨19, h19⟩).view.set) : (dat1 V c).arrAt w cfg1.N = G :=
  (dat1 V c).arrAt_eq_of_cover w G (fun t hf => by
    have h := (hfl t).mp hf
    have h' : t.val < 20 := (t20 t).isLt
    obtain rfl : t = ⟨19, h19⟩ := Fin.ext (show t.val = 19 by omega)
    exact hG) fun i => ⟨_, (hfl _).mpr rfl, hc i⟩

theorem read_whole (X : Vec Ideal S1x1024 .f32) :
    ((cfg1.win 9).blk t).view.read (Elt Ideal) X = X ∧ ((cfg1.win 10).blk t).view.read (Elt Ideal) X = X :=
  ⟨funext fun j => by rw [View.read_apply, (emb_whole t j).1]; rfl, funext fun j => by rw [View.read_apply, (emb_whole t j).2]; rfl⟩

theorem final9 : (dat1 V c).arrAt 9 cfg1.N = acc9 V c 19 h19 :=
  final_last V c 9 _ flush1_9 (by
    rw [(read_whole ⟨19, h19⟩ _).1]
    show (cfg1.win 9).cut (grid1.coords ⟨19, h19⟩) ((dat1 V c).after 9 ⟨19, h19⟩) = _
    rw [after1_9]; rfl)
    fun i => by have h := ((cfg1.win 9).blk ⟨19, h19⟩).view.emb_mem_set i; rwa [(emb_whole ⟨19, h19⟩ i).1] at h

theorem final10 : (dat1 V c).arrAt 10 cfg1.N = acc10 V c 19 h19 :=
  final_last V c 10 _ flush1_10 (by
    rw [(read_whole ⟨19, h19⟩ _).2]
    show (cfg1.win 10).cut (grid1.coords ⟨19, h19⟩) ((dat1 V c).after 10 ⟨19, h19⟩) = _
    rw [after1_10]; rfl)
    fun i => by have h := ((cfg1.win 10).blk ⟨19, h19⟩).view.emb_mem_set i; rwa [(emb_whole ⟨19, h19⟩ i).2] at h

theorem sum20 (f : EReal → EReal) (r : Fin 1024) :
    ∑ m ∈ Finset.range (19 + 1), blkSum V c f r m = ∑ t : Fin 20, ∑ i : Fin 1000, f (Z1 V c (row t i) r) := by
  rw [← Fin.sum_univ_eq_sum_range (blkSum V c f r) 20]
  exact Finset.sum_congr rfl fun t _ => dif_pos t.isLt

end Reg1Val

open Reg1Val

theorem z1_eq (V : (c : Dev nD) → (b : Ref sig .tc) → Buf (Elt Ideal) ((c : Thread nD τ).loc b)) (c : Dev nD) :
    a2 (A := 20000) (B := 1024) ((dat1 (F := Ideal) V c).arrAt 8 cfg1.N)
      = kZ (kPe (a2 (A := 20000) (B := 5) (V c main_arg1)) (a2 (A := 5) (B := 128) (V c main_v4_0)) (row0 (B := 128) (V c main_v4_1)))
        (a2 (A := 20000) (B := 36) (V c main_arg0)) (a2 (A := 20000) (B := 2048) (V c main_arg2)) (a2 (A := 36) (B := 1024) (V c main_v12))
        (a2 (A := 1024) (B := 2176) (V c main_v8)) (row0 (B := 1024) (V c main_v14)) := by
  rw [final8]

theorem s1_eq (V : (c : Dev nD) → (b : Ref sig .tc) → Buf (Elt Ideal) ((c : Thread nD τ).loc b)) (c : Dev nD) :
    row0 (B := 1024) ((dat1 (F := Ideal) V c).arrAt 9 cfg1.N)
      = kS (kZ (kPe (a2 (A := 20000) (B := 5) (V c main_arg1)) (a2 (A := 5) (B := 128) (V c main_v4_0)) (row0 (B := 128) (V c main_v4_1)))
        (a2 (A := 20000) (B := 36) (V c main_arg0)) (a2 (A := 20000) (B := 2048) (V c main_arg2)) (a2 (A := 36) (B := 1024) (V c main_v12))
        (a2 (A := 1024) (B := 2176) (V c main_v8)) (row0 (B := 1024) (V c main_v14))) :=
  funext fun r => (congrFun (final9 V c) _).trans ((acc_apply V c (fun z => z) r (acc9 V c) (fun _ => (outA_apply _ _ _ _ _ _ _ _ r).1)
    (fun _ _ => (outB_apply _ _ _ _ _ _ _ _ _ r).1) 19 h19).trans (sum20 V c _ r))

theorem ss1_eq (V : (c : Dev nD) → (b : Ref sig .tc) → Buf (Elt Ideal) ((c : Thread nD τ).loc b)) (c : Dev nD) :
    row0 (B := 1024) ((dat1 (F := Ideal) V c).arrAt 10 cfg1.N)
      = kSS (kZ (kPe (a2 (A := 20000) (B := 5) (V c main_arg1)) (a2 (A := 5) (B := 128) (V c main_v4_0)) (row0 (B := 128) (V c main_v4_1)))
        (a2 (A := 20000) (B := 36) (V c main_arg0)) (a2 (A := 20000) (B := 2048) (V c main_arg2)) (a2 (A := 36) (B := 1024) (V c main_v12))
        (a2 (A := 1024) (B := 2176) (V c main_v8)) (row0 (B := 1024) (V c main_v14))) :=
  funext fun r => (congrFun (final10 V c) _).trans ((acc_apply V c (fun z => z * z) r (acc10 V c) (fun _ => (outA_apply _ _ _ _ _ _ _ _ r).2)
    (fun _ _ => (outB_apply _ _ _ _ _ _ _ _ _ r).2) 19 h19).trans (sum20 V c _ r))

end Cert.KernelIdeal.Hand

end
-- ==== Proof.KI.Val2.lean ====
import proofs.«145576_g33105607918058_cont_8to1_b_384_29_alg».proof.Proof.KI.Reg2Defs
import proofs.«145576_g33105607918058_cont_8to1_b_384_29_alg».proof.Proof.Spec
import proofs.«145576_g33105607918058_cont_8to1_b_384_29_alg».proof.Proof.Arr
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe
open Idealize.ShloMosaic.ValueIdx Cert.Spec

namespace Val2

/-- Both operands are contracted on their second axis: entry (p, q) sums, over r, left (p, r) times right (q, r). -/
theorem prod_apply (A : FVec Ideal S1000x1024 .bf16) (B : FVec Ideal S37x1024 .bf16) (p : Fin 1000) (q : Fin 37) :
    matmul dot_S1000x1024_S37x1024_S1000x37_1_1_0_0_n_n none A B (constant (F := Ideal) S1000x37 .f32 0x00000000#32) (ix2 p q)
      = ∑ r : Fin 1024, A (ix2 p r) * B (ix2 q r) := by
  simp only [matmul]
  rw [Ideal.matmul_constant_zero_apply, ← Equiv.sum_comp (contrEquiv1 dot_S1000x1024_S37x1024_S1000x37_1_1_0_0_n_n 1024 rfl rfl).symm]
  refine Finset.sum_congr rfl fun l _ => ?_
  have hk := contrEquiv1_symm_val dot_S1000x1024_S37x1024_S1000x37_1_1_0_0_n_n 1024 rfl rfl l
  exact congrArg₂ (A · * B ·) (Shape.idx_ext₂ rfl ((DotDims.lhsIdx_val_of_single _ rfl _ _).trans hk))
    (Shape.idx_ext₂ rfl ((DotDims.rhsIdx_val_of_single _ rfl _ _).trans hk))

theorem hz : (![0, 0] : Fin 2 → Nat) = fun _ => 0 := funext fun a => by fin_cases a <;> rfl

theorem val_apply (x0 : Vec Ideal S1000x1024 .bf16) (x1 x2 x3 x4 : Vec Ideal S1x1024 .f32) (x5 : Vec Ideal S37x1024 .bf16)
    (x6 : Vec Ideal S1x37 .f32) (i : Fin 1000) (j : Fin 37) :
    val2_7 x0 x1 x2 x3 x4 x5 x6 (ix2 i j)
      = (∑ r : Fin 1024, max (x0 (ix2 i r) * kScale (row0 (B := 1024) x1) (row0 (B := 1024) x2) (row0 (B := 1024) x3) r
            + kShift (row0 (B := 1024) x1) (row0 (B := 1024) x2) (row0 (B := 1024) x3) (row0 (B := 1024) x4) r) 0 * x5 (ix2 j r))
          + x6 (ix2 (0 : Fin 1) j) := by
  unfold val2_7
  simp only [View.ld_unit_zero (S := S1x1024) hz, View.ld_unit_zero (S := S1000x1024) hz, View.ld_unit_zero (S := S37x1024) hz,
    View.ld_unit_zero (S := S1x37) hz]
  unfold k2_pay1
  simp only [shapeCast_self]
  rw [addf_apply, broadcastTo_1b_ab_apply, prod_apply]
  refine congrArg (· + x6 (ix2 (0 : Fin 1) j)) (Finset.sum_congr rfl fun r _ => ?_)
  rw [truncf_apply, maximumf_apply, addf_apply, mulf_apply, extf_apply, broadcastTo_1b_ab_apply, broadcastTo_1b_ab_apply,
    broadcast_apply]
  show max _ (Ideal.ofBits .f32 0x00000000#32) * _ = _
  rw [Ideal.ofBits_zero_f32]
  rfl

theorem idx_facts : ∀ (t : Fin cfg2.N) (a : Fin 2), win2_0.index t a = ![t.val, 0] a ∧ win2_7.index t a = ![t.val, 0] a
    ∧ win2_1.index t a = 0 ∧ win2_2.index t a = 0 ∧ win2_3.index t a = 0 ∧ win2_4.index t a = 0 ∧ win2_5.index t a = 0
    ∧ win2_6.index t a = 0 :=
  (by decide +kernel : ∀ t : Fin grid2.N, _)

theorem lt20 (t : Fin cfg2.N) : t.val < 20 := N_2 ▸ t.isLt

variable (V : (c : Dev nD) → (b : Ref sig .tc) → Buf (Elt Ideal) ((c : Thread nD τ).loc b)) (c : Dev nD)

theorem blk0_apply (t : Fin cfg2.N) (i : Fin 1000) (r : Fin 1024) :
    iblk2 V c 0 t (ix2 i r) = V c main_v15_0 (ix2 (⟨1000 * t.val + i.val, by have := lt20 t; omega⟩ : Fin 20000) r) := by
  have e0 : win2_0.index t (0 : Fin 2) = t.val := (idx_facts t 0).1
  have e1 : win2_0.index t (1 : Fin 2) = 0 := (idx_facts t 1).1
  refine congrArg (V c main_v15_0) (Shape.idx_ext₂ ?_ ?_)
  · show win2_0.index t (0 : Fin 2) * 1000 + 1 * i.val = 1000 * t.val + i.val; omega
  · show win2_0.index t (1 : Fin 2) * 1024 + 1 * r.val = r.val; omega

theorem blk1_eq (t : Fin cfg2.N) : iblk2 V c 1 t = V c main_v15_1 :=
  funext fun y => congrArg (V c main_v15_1) (funext fun a => Fin.ext (win2_1.rect_emb_val_of_index_zero t a (idx_facts t a).2.2.1 y))

theorem blk2_eq (t : Fin cfg2.N) : iblk2 V c 2 t = V c main_v15_2 :=
  funext fun y => congrArg (V c main_v15_2) (funext fun a => Fin.ext (win2_2.rect_emb_val_of_index_zero t a (idx_facts t a).2.2.2.1 y))

theorem blk3_eq (t : Fin cfg2.N) : iblk2 V c 3 t = V c main_v16 :=
  funext fun y => congrArg (V c main_v16) (funext fun a => Fin.ext (win2_3.rect_emb_val_of_index_zero t a (idx_facts t a).2.2.2.2.1 y))

theorem blk4_eq (t : Fin cfg2.N) : iblk2 V c 4 t = V c main_v17 :=
  funext fun y => congrArg (V c main_v17) (funext fun a => Fin.ext (win2_4.rect_emb_val_of_index_zero t a (idx_facts t a).2.2.2.2.2.1 y))

theorem blk5_eq (t : Fin cfg2.N) : iblk2 V c 5 t = V c main_v13 :=
  funext fun y => congrArg (V c main_v13) (funext fun a => Fin.ext (win2_5.rect_emb_val_of_index_zero t a (idx_facts t a).2.2.2.2.2.2.1 y))

theorem blk6_eq (t : Fin cfg2.N) : iblk2 V c 6 t = V c main_v18 :=
  funext fun y => congrArg (V c main_v18) (funext fun a => Fin.ext (win2_6.rect_emb_val_of_index_zero t a (idx_facts t a).2.2.2.2.2.2.2 y))

/-- The specification's last stage over the region's input arrays. -/
def out2 : Fin 20000 → Fin 37 → EReal :=
  kOut (a2 (A := 20000) (B := 1024) (V c main_v15_0)) (row0 (B := 1024) (V c main_v15_1)) (row0 (B := 1024) (V c main_v15_2))
    (row0 (B := 1024) (V c main_v16)) (row0 (B := 1024) (V c main_v17)) (a2 (A := 37) (B := 1024) (V c main_v13))
    (row0 (B := 37) (V c main_v18))

def outArr : S20000x37.Idx → Elt Ideal .f32 := fun n => out2 V c (n 0) (n 1)

theorem emb7 (t : Fin cfg2.N) (p : Fin 1000) (q : Fin 37) :
    ((cfg2.win 7).blk t).view.emb (ix2 p q) = ix2 (⟨1000 * t.val + p.val, by have := lt20 t; omega⟩ : Fin 20000) q := by
  have e0 : win2_7.index t (0 : Fin 2) = t.val := (idx_facts t 0).2.1
  have e1 : win2_7.index t (1 : Fin 2) = 0 := (idx_facts t 1).2.1
  refine Shape.idx_ext₂ ?_ ?_
  · show win2_7.index t (0 : Fin 2) * 1000 + 1 * p.val = 1000 * t.val + p.val; omega
  · show win2_7.index t (1 : Fin 2) * 37 + 1 * q.val = q.val; omega

theorem flushed_eq (t : Fin cfg2.N) :
    (dat2 V c).flushed 7 t = ((cfg2.win 7).blk t).view.read (Elt Ideal) (outArr V c) := by
  show (cfg2.win 7).cut (grid2.coords t) ((dat2 V c).after 7 t) = _
  rw [after2_7]
  unfold out2_7
  rw [View.canon_unit_zero hz]
  funext y
  obtain ⟨p, q, rfl⟩ : ∃ (p : Fin 1000) (q : Fin 37), y = ix2 p q := ⟨y 0, y 1, eq_ix2 y⟩
  show val2_7 (F := Ideal) _ _ _ _ _ _ _ (ix2 p q) = outArr V c (((cfg2.win 7).blk t).view.emb (ix2 p q))
  rw [emb7, val_apply, blk1_eq, blk2_eq, blk3_eq, blk4_eq, blk5_eq, blk6_eq]
  unfold outArr out2 kOut kH
  refine congrArg (· + V c main_v18 (ix2 (0 : Fin 1) q)) (Finset.sum_congr rfl fun r _ => ?_)
  rw [blk0_apply]

/-- Row n lies in the block of point n / 1000. -/
theorem cover7 (n : S20000x37.Idx) :
    ∃ t : Fin cfg2.N, (cfg2.win 7).flush t = true ∧ n ∈ ((cfg2.win 7).blk t).view.set := by
  have hn0 := idx2_lt0 n
  have hn1 := idx2_lt1 n
  obtain ⟨t, ht⟩ : ∃ t : Fin cfg2.N, t.val = (n 0).val / 1000 := ⟨⟨_, by rw [show cfg2.N = 20 from N_2]; omega⟩, rfl⟩
  have e0 : win2_7.index t (0 : Fin 2) = t.val := (idx_facts t 0).2.1
  have e1 : win2_7.index t (1 : Fin 2) = 0 := (idx_facts t 1).2.1
  refine ⟨t, flush2_7 t, ?_⟩
  show n ∈ ((View.whole main_v19).slice (win2_7.rect t)).set
  rw [View.set_slice_whole, Rect.mem_set_unit]
  intro a
  match a with
  | ⟨0, _⟩ => show win2_7.index t (0 : Fin 2) * 1000 ≤ (n 0).val ∧ (n 0).val < win2_7.index t (0 : Fin 2) * 1000 + 1000; omega
  | ⟨1, _⟩ => show win2_7.index t (1 : Fin 2) * 37 ≤ (n 1).val ∧ (n 1).val < win2_7.index t (1 : Fin 2) * 37 + 37; omega

end Val2

theorem out2_eq (V : (c : Dev nD) → (b : Ref sig .tc) → Buf (Elt Ideal) ((c : Thread nD τ).loc b)) (c : Dev nD) :
    a2 (A := 20000) (B := 37) ((dat2 (F := Ideal) V c).arrAt 7 cfg2.N) = Val2.out2 V c :=
  funext fun n => funext fun j => congrFun
    ((dat2 V c).arrAt_eq_of_cover 7 (Val2.outArr V c) (fun t _ => Val2.flushed_eq V c t) Val2.cover7) (ix2 n j)

end Cert.KernelIdeal.Hand

end
-- ==== Proof.KI.Value.lean ====
import proofs.«145576_g33105607918058_cont_8to1_b_384_29_alg».proof.Proof.KI.RunDefs
import proofs.«145576_g33105607918058_cont_8to1_b_384_29_alg».proof.Proof.KI.Glue
import proofs.«145576_g33105607918058_cont_8to1_b_384_29_alg».proof.Proof.KI.GlueIdx
import proofs.«145576_g33105607918058_cont_8to1_b_384_29_alg».proof.Proof.KI.Val0
import proofs.«145576_g33105607918058_cont_8to1_b_384_29_alg».proof.Proof.KI.Val1
import proofs.«145576_g33105607918058_cont_8to1_b_384_29_alg».proof.Proof.KI.Val2
import proofs.«145576_g33105607918058_cont_8to1_b_384_29_alg».proof.Proof.Spec
import proofs.«145576_g33105607918058_cont_8to1_b_384_29_alg».proof.Proof.Arr

noncomputable section

namespace Cert.KernelIdeal.Hand

open Cert.KernelIdeal Cert.KernelIdeal.Gen
open Idealize.ShloMosaic Idealize.ShloMosaic.TcCoe
open Idealize.ShloMosaic.ValueIdx Cert.Spec

variable (m : (ℓ : Loc nD τ sig) → Buf (Elt Ideal) ℓ)

/-- Each region leaves its stage of the specification applied to its operands, and the host steps between regions are entrywise identities. -/
theorem kernel_value (c : Dev nD) :
    a2 (A := 20000) (B := 37) (W6 (F := Ideal) m c (Proc.devRef .tc main_v19))
      = outK (a2 (A := 20000) (B := 36) (m ((c : Thread nD τ).loc main_arg0))) (a2 (A := 20000) (B := 5) (m ((c : Thread nD τ).loc main_arg1))) (a2 (A := 20000) (B := 2048) (m ((c : Thread nD τ).loc main_arg2)))
        (a2 (A := 36) (B := 200) (m ((c : Thread nD τ).loc main_arg4))) (a1 (A := 4) (m ((c : Thread nD τ).loc main_arg5))) (a1 (A := 4) (m ((c : Thread nD τ).loc main_arg6))) (a2 (A := 128) (B := 4) (m ((c : Thread nD τ).loc main_arg7))) (a1 (A := 128) (m ((c : Thread nD τ).loc main_arg8)))
        (a2 (A := 1024) (B := 2376) (m ((c : Thread nD τ).loc main_arg9))) (a1 (A := 1024) (m ((c : Thread nD τ).loc main_arg10))) (a1 (A := 1024) (m ((c : Thread nD τ).loc main_arg11))) (a1 (A := 1024) (m ((c : Thread nD τ).loc main_arg12)))
        (a2 (A := 37) (B := 1024) (m ((c : Thread nD τ).loc main_arg13))) (a1 (A := 37) (m ((c : Thread nD τ).loc main_arg14))) := by
  rw [W6_v19, out2_eq (V5 m) c, Val2.out2, V5_v15_0, V5_v15_1, V5_v15_2, V5_v16, V5_v17, V5_v18, V5_v13,
    z1_eq (V3 m) c, s1_eq (V3 m) c, ss1_eq (V3 m) c, row_eq, row_eq, row_eq, trunc_37x1024,
    V3_arg0, V3_arg1, V3_arg2, V3_v4_0, V3_v4_1, V3_v12, V3_v8, V3_v14,
    final0_5 (V1 m) c, final0_6 (V1 m) c, out0_5_eq, out0_6_eq, wdt_eq, w1fp_eq, row_eq,
    V1_v0, V1_arg7, V1_v1, V1_v2, V1_v3, reshape_pack, row_eq, row_eq, row_eq]
  rfl

end Cert.KernelIdeal.Hand

end
-- ==== Proof.Ref.Ops.lean ====
import proofs.«145576_g33105607918058_cont_8to1_b_384_29_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

abbrev ops : List (HloOp τ sig (Elt F)) :=
  [ binary main_arg0 main_arg4 main_v0 (fun l r => Host.dotGeneral dot_S20000x36_S36x200_S20000x200_1_0_0_1_n_n none l r),
    unary main_arg1 main_v1 (extractStridedSlice S20000x4 ![0, 1] · slices_S20000x5_S20000x4_0_1),
    unary main_v1 main_v2 (extractStridedSlice S20000x2 ![0, 2] · slices_S20000x4_S20000x2_0_2),
    unary main_v1 main_v3 (extractStridedSlice S20000x2 ![0, 0] · slices_S20000x4_S20000x2_0_0),
    binary main_v2 main_v3 main_v4 subf,
    nullary main_cst (constant S_ .f32 0x3F800000#32),
    unary main_cst main_v5 (broadcastInDim S20000x2 ![] bcast_S_S20000x2),
    binary main_v4 main_v5 main_v6 addf,
    unary main_v1 main_v7 (extractStridedSlice S20000x2 ![0, 0] · slices_S20000x4_S20000x2_0_0),
    nullary main_cst_0 (constant S_ .f32 0x3F000000#32),
    unary main_cst_0 main_v8 (broadcastInDim S20000x2 ![] bcast_S_S20000x2),
    binary main_v8 main_v6 main_v9 mulf,
    binary main_v7 main_v9 main_v10 addf,
    binary main_v10 main_v6 main_v11 (fun a b => concatenate S20000x4 1 [⟨S20000x2, a⟩, ⟨S20000x2, b⟩] concatenates_S20000x2_S20000x2_S20000x4_d1),
    nullary main_cst_1 (constant S_ .f32 0x00000000#32),
    binary main_v11 main_cst_1 main_v12 (fun x v => Host.reduceAdd x v reducesTo_S20000x4_S4_d0 h_S_),
    nullary main_cst_2 (constant S_ .f32 0x469C4000#32),
    unary main_cst_2 main_v13 (broadcastInDim S4 ![] bcast_S_S4),
    binary main_v12 main_v13 main_v14 Host.divf,
    nullary main_c (constantI S_ 32 0#32),
    TRef.nullary main_call0.cst (constant S_ .f32 0x00000000#32),
    TRef.binary (.of main_v11) main_call0.cst main_call0.v0 (fun x v => Host.reduceAdd x v reducesTo_S20000x4_S4_d0 h_S_),
    TRef.unary main_call0.v0 main_call0.v1 (broadcastInDim S1x4 ![1] bcast_S4_S1x4_1),
    TRef.nullary main_call0.cst_0 (constant S_ .f32 0x469C4000#32),
    TRef.unary main_call0.cst_0 main_call0.v2 (broadcastInDim S1x4 ![] bcast_S_S1x4),
    TRef.binary main_call0.v1 main_call0.v2 main_call0.v3 Host.divf,
    TRef.unary main_call0.v3 main_call0.v4 (broadcastInDim S20000x4 ![0, 1] bcast_S1x4_S20000x4_0_1),
    TRef.binary (.of main_v11) main_call0.v4 main_call0.v5 subf,
    TRef.binary main_call0.v5 main_call0.v5 main_call0.v6 mulf,
    TRef.unary (.of main_c) main_call0.v7 (sitofp .f32),
    TRef.nullary main_call0.cst_1 (constant S_ .f32 0x469C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S20000x4_S4_d0 h_S_),
    TRef.unary main_call0.v8 main_call0.v10 (broadcastInDim S4 ![] bcast_S_S4),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S4 ![] bcast_S_S4),
    TRef.ternary main_call0.v12 main_call0.v11 main_call0.call0.v1 main_call0.call0.v2 (fun p a b => select (broadcastInDim S4 ![] bcast_S_S4 p) a b),
    unary main_v14 main_v16 (broadcastInDim S1x4 ![1] bcast_S4_S1x4_1),
    unary main_v16 main_v17 (broadcastInDim S20000x4 ![0, 1] bcast_S1x4_S20000x4_0_1),
    binary main_v11 main_v17 main_v18 subf,
    nullary main_cst_3 (constant S_ .f32 0x3727C5AC#32),
    unary main_cst_3 main_v19 (broadcastInDim S4 ![] bcast_S_S4),
    binary main_v15 main_v19 main_v20 addf,
    unary main_v20 main_v21 Host.sqrt,
    unary main_v21 main_v22 (broadcastInDim S1x4 ![1] bcast_S4_S1x4_1),
    unary main_v22 main_v23 (broadcastInDim S20000x4 ![0, 1] bcast_S1x4_S20000x4_0_1),
    binary main_v18 main_v23 main_v24 Host.divf,
    unary main_arg5 main_v25 (broadcastInDim S1x4 ![1] bcast_S4_S1x4_1),
    unary main_v25 main_v26 (broadcastInDim S20000x4 ![0, 1] bcast_S1x4_S20000x4_0_1),
    binary main_v24 main_v26 main_v27 mulf,
    unary main_arg6 main_v28 (broadcastInDim S1x4 ![1] bcast_S4_S1x4_1),
    unary main_v28 main_v29 (broadcastInDim S20000x4 ![0, 1] bcast_S1x4_S20000x4_0_1),
    binary main_v27 main_v29 main_v30 addf,
    unary main_arg7 main_v31 (transpose S4x128 [1, 0] · transposes_S128x4_S4x128_1_0),
    binary main_v30 main_v31 main_v32 (fun l r => Host.dotGeneral dot_S20000x4_S4x128_S20000x128_1_0_0_1_n_n none l r),
    unary main_arg8 main_v33 (broadcastInDim S1x128 ![1] bcast_S128_S1x128_1),
    unary main_v33 main_v34 (broadcastInDim S20000x128 ![0, 1] bcast_S1x128_S20000x128_0_1),
    binary main_v32 main_v34 main_v35 addf,
    TRef.nullary main_call1.cst (constant S_ .f32 0x00000000#32),
    TRef.unary main_call1.cst main_call1.v0 (broadcastInDim S20000x128 ![] bcast_S_S20000x128),
    TRef.binary (.of main_v35) main_call1.v0 main_call1.v1 maximumf,
    nary ![main_arg2, main_v0, main_v36] main_v37 (fun u => concatenate S20000x2376 1 [⟨S20000x2048, u 0⟩, ⟨S20000x200, u 1⟩, ⟨S20000x128, u 2⟩] concatenates_S20000x2048_S20000x200_S20000x128_S20000x2376_d1),
    unary main_arg9 main_v38 (transpose S2376x1024 [1, 0] · transposes_S1024x2376_S2376x1024_1_0),
    binary main_v37 main_v38 main_v39 (fun l r => Host.dotGeneral dot_S20000x2376_S2376x1024_S20000x1024_1_0_0_1_n_n none l r),
    unary main_arg10 main_v40 (broadcastInDim S1x1024 ![1] bcast_S1024_S1x1024_1),
    unary main_v40 main_v41 (broadcastInDim S20000x1024 ![0, 1] bcast_S1x1024_S20000x1024_0_1),
    binary main_v39 main_v41 main_v42 addf,
    nullary main_cst_4 (constant S_ .f32 0x00000000#32),
    binary main_v42 main_cst_4 main_v43 (fun x v => Host.reduceAdd x v reducesTo_S20000x1024_S1024_d0 h_S_),
    nullary main_cst_5 (constant S_ .f32 0x469C4000#32),
    unary main_cst_5 main_v44 (broadcastInDim S1024 ![] bcast_S_S1024),
    binary main_v43 main_v44 main_v45 Host.divf,
    nullary main_c_6 (constantI S_ 32 0#32),
    TRef.nullary main_call2.cst (constant S_ .f32 0x00000000#32),
    TRef.binary (.of main_v42) main_call2.cst main_call2.v0 (fun x v => Host.reduceAdd x v reducesTo_S20000x1024_S1024_d0 h_S_),
    TRef.unary main_call2.v0 main_call2.v1 (broadcastInDim S1x1024 ![1] bcast_S1024_S1x1024_1),
    TRef.nullary main_call2.cst_0 (constant S_ .f32 0x469C4000#32),
    TRef.unary main_call2.cst_0 main_call2.v2 (broadcastInDim S1x1024 ![] bcast_S_S1x1024),
    TRef.binary main_call2.v1 main_call2.v2 main_call2.v3 Host.divf,
    TRef.unary main_call2.v3 main_call2.v4 (broadcastInDim S20000x1024 ![0, 1] bcast_S1x1024_S20000x1024_0_1),
    TRef.binary (.of main_v42) main_call2.v4 main_call2.v5 subf,
    TRef.binary main_call2.v5 main_call2.v5 main_call2.v6 mulf,
    TRef.unary (.of main_c_6) main_call2.v7 (sitofp .f32),
    TRef.nullary main_call2.cst_1 (constant S_ .f32 0x469C4000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S20000x1024_S1024_d0 h_S_),
    TRef.unary main_call2.v8 main_call2.v10 (broadcastInDim S1024 ![] bcast_S_S1024),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S1024 ![] bcast_S_S1024),
    TRef.ternary main_call2.v12 main_call2.v11 main_call2.call0.v1 main_call2.call0.v2 (fun p a b => select (broadcastInDim S1024 ![] bcast_S_S1024 p) a b),
    unary main_v45 main_v47 (broadcastInDim S1x1024 ![1] bcast_S1024_S1x1024_1),
    unary main_v47 main_v48 (broadcastInDim S20000x1024 ![0, 1] bcast_S1x1024_S20000x1024_0_1),
    binary main_v42 main_v48 main_v49 subf,
    nullary main_cst_7 (constant S_ .f32 0x3727C5AC#32),
    unary main_cst_7 main_v50 (broadcastInDim S1024 ![] bcast_S_S1024),
    binary main_v46 main_v50 main_v51 addf,
    unary main_v51 main_v52 Host.sqrt,
    unary main_v52 main_v53 (broadcastInDim S1x1024 ![1] bcast_S1024_S1x1024_1),
    unary main_v53 main_v54 (broadcastInDim S20000x1024 ![0, 1] bcast_S1x1024_S20000x1024_0_1),
    binary main_v49 main_v54 main_v55 Host.divf,
    unary main_arg11 main_v56 (broadcastInDim S1x1024 ![1] bcast_S1024_S1x1024_1),
    unary main_v56 main_v57 (broadcastInDim S20000x1024 ![0, 1] bcast_S1x1024_S20000x1024_0_1),
    binary main_v55 main_v57 main_v58 mulf,
    unary main_arg12 main_v59 (broadcastInDim S1x1024 ![1] bcast_S1024_S1x1024_1),
    unary main_v59 main_v60 (broadcastInDim S20000x1024 ![0, 1] bcast_S1x1024_S20000x1024_0_1),
    binary main_v58 main_v60 main_v61 addf,
    TRef.nullary main_call3.cst (constant S_ .f32 0x00000000#32),
    TRef.unary main_call3.cst main_call3.v0 (broadcastInDim S20000x1024 ![] bcast_S_S20000x1024),
    TRef.binary (.of main_v61) main_call3.v0 main_call3.v1 maximumf,
    unary main_arg13 main_v63 (transpose S1024x37 [1, 0] · transposes_S37x1024_S1024x37_1_0),
    binary main_v62 main_v63 main_v64 (fun l r => Host.dotGeneral dot_S20000x1024_S1024x37_S20000x37_1_0_0_1_n_n none l r),
    unary main_arg14 main_v65 (broadcastInDim S1x37 ![1] bcast_S37_S1x37_1),
    unary main_v65 main_v66 (broadcastInDim S20000x37 ![0, 1] bcast_S1x37_S20000x37_0_1),
    binary main_v64 main_v66 main_v67 addf ]

end Cert.ReferenceIdeal.RefRun

end
-- ==== Proof.Ref.Run.lean ====
import proofs.«145576_g33105607918058_cont_8to1_b_384_29_alg».proof.Proof.Ref.Ops

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]

theorem ops_sub : (ops : List (HloOp τ sig (Elt F))).Forall fun op => op.bufs ⊆ tcRefs τ sig := by
  simp only [List.Forall, nullary_bufs_sub, unary_bufs_sub, binary_bufs_sub, ternary_bufs_sub, nary_bufs_sub, and_self]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq (by decide) (by decide) defs main (fun _ => ops) (fun _ => rfl) (fun _ => ops_sub) m ρ

/-- No operation of the line writes an argument, so the fold leaves it as it was. -/
theorem arg_eq (V : Valuation τ sig (Elt F)) (b : Ref sig .tc)
    (hb : b ∈ [main_arg0, main_arg1, main_arg2, main_arg3, main_arg4, main_arg5, main_arg6, main_arg7, main_arg8, main_arg9,
      main_arg10, main_arg11, main_arg12, main_arg13, main_arg14]) :
    after ops V (b : DevRef τ sig) = V (b : DevRef τ sig) := by
  fin_cases hb <;> rfl

end Cert.ReferenceIdeal.RefRun

end
-- ==== Proof.Math.LibBatchNorm.lean ====
import proofs.«145576_g33105607918058_cont_8to1_b_384_29_alg».proof.Proof.Spec

namespace Cert.Spec

open Idealize.ShloMosaic

-- The reals inside the extended reals: closed under sums, products, finite sums and the maximum with zero.
def IsR (a : EReal) : Prop := ∃ r : ℝ, a = r

theorem coe_sum {ι : Type*} (s : Finset ι) (f : ι → ℝ) : ((∑ i ∈ s, f i : ℝ) : EReal) = ∑ i ∈ s, (f i : EReal) :=
  map_sum (⟨⟨(↑), EReal.coe_zero⟩, EReal.coe_add⟩ : ℝ →+ EReal) f s

namespace IsR
variable {a b : EReal}

theorem add : IsR a → IsR b → IsR (a + b) := by
  rintro ⟨x, rfl⟩ ⟨y, rfl⟩; exact ⟨x + y, (EReal.coe_add x y).symm⟩

theorem mul : IsR a → IsR b → IsR (a * b) := by
  rintro ⟨x, rfl⟩ ⟨y, rfl⟩; exact ⟨x * y, (EReal.coe_mul x y).symm⟩

theorem max0 : IsR a → IsR (max a 0) := by
  rintro ⟨x, rfl⟩; exact ⟨max x 0, by rw [EReal.coe_strictMono.monotone.map_max, EReal.coe_zero]⟩

theorem sum {ι : Type*} (s : Finset ι) {f : ι → EReal} (h : ∀ i, IsR (f i)) : IsR (∑ i ∈ s, f i) := by
  choose g hg using h
  exact ⟨∑ i ∈ s, g i, by rw [coe_sum]; exact Finset.sum_congr rfl fun i _ => hg i⟩

end IsR

namespace BatchNorm

theorem cN_eq : cN = ((20000 : ℝ) : EReal) := by
  simp [cN, Ideal.ofBits, Ideal.ieee, -EReal.coe_mul]; norm_num

theorem cEps_pos : ∃ e : ℝ, 0 < e ∧ cEps = (e : EReal) := by
  simp [cEps, Ideal.ofBits, Ideal.ieee, -EReal.coe_mul]

theorem div_coe_coe (a : ℝ) {y : ℝ} (hy : y ≠ 0) : Ideal.div (a : EReal) (y : EReal) = ((a / y : ℝ) : EReal) := by
  rw [Ideal.div_coe hy, ← EReal.coe_mul, mul_one_div]

theorem sum_div_cN (y : Fin 20000 → EReal) (r : Fin 20000 → ℝ) (h : ∀ n, y n = (r n : EReal)) :
    Ideal.div (∑ n, y n) cN = (((∑ n, r n) / 20000 : ℝ) : EReal) := by
  rw [Finset.sum_congr rfl fun n _ => h n, ← coe_sum, cN_eq, div_coe_coe _ (by norm_num)]

-- The mean squared deviation from the average M = S/20000 is the mean of the squares less M².
theorem sum_sq_dev (r : Fin 20000 → ℝ) (S : ℝ) (hS : ∑ k, r k = S) :
    (∑ n, (r n - S / 20000) * (r n - S / 20000)) / 20000
      = (∑ n, r n * r n) / 20000 - (S / 20000) * (S / 20000) := by
  simp only [sub_mul, mul_sub, Finset.sum_sub_distrib, ← Finset.sum_mul, ← Finset.mul_sum, hS, Finset.sum_const,
    Finset.card_univ, Fintype.card_fin, nsmul_eq_mul]
  push_cast
  field_simp
  ring

end BatchNorm

open BatchNorm

variable {C : ℕ} (x : Fin 20000 → Fin C → EReal) (g b : Fin C → EReal) (q : Fin C)

noncomputable def fScale : EReal :=
  g q * Ideal.rsqrt ((Ideal.div (∑ n, x n q * x n q) cN - rMean x q * rMean x q) + cEps)

variable (hx : ∀ n, IsR (x n q)) (hg : IsR (g q)) (hb : IsR (b q))
include hx hg hb

-- With M the mean and s = √(variance + ε) > 0 (the same real variance either way), (x − M)/s·γ + β = x·(γ/s) + (β − M·(γ/s)).
theorem bn_fold :
    ∃ s t : ℝ, fScale x g q = s ∧ b q - rMean x q * fScale x g q = t ∧ ∀ n, rBn x g b n q = x n q * s + t := by
  choose r hr using hx
  obtain ⟨G, hG⟩ := hg
  obtain ⟨B, hB⟩ := hb
  obtain ⟨e, he, hce⟩ := cEps_pos
  have hM : rMean x q = (((∑ k, r k) / 20000 : ℝ) : EReal) := sum_div_cN (fun n => x n q) r hr
  have hSq := sum_div_cN (fun n => x n q * x n q) (fun n => r n * r n) (fun n => by rw [hr n, EReal.coe_mul])
  have hV := sum_div_cN (fun n => (x n q - rMean x q) * (x n q - rMean x q))
    (fun n => (r n - (∑ k, r k) / 20000) * (r n - (∑ k, r k) / 20000))
    (fun n => by rw [hr n, hM, ← EReal.coe_sub, ← EReal.coe_mul])
  have hid := sum_sq_dev r _ rfl
  have hv0 := div_nonneg (Finset.sum_nonneg (s := Finset.univ) fun n _ => mul_self_nonneg (r n - (∑ k, r k) / 20000)) (by norm_num : (0 : ℝ) ≤ 20000)
  set M : ℝ := (∑ k, r k) / 20000
  set V : ℝ := (∑ n, (r n - M) * (r n - M)) / 20000
  have hpos : 0 < V + e := by linarith
  have hs := Real.sqrt_pos.mpr hpos
  have hsc : fScale x g q = ((G * (Real.sqrt (V + e))⁻¹ : ℝ) : EReal) := by
    rw [fScale, hSq, hM, hG, ← EReal.coe_mul, ← EReal.coe_sub, ← hid, hce, ← EReal.coe_add, Ideal.rsqrt_coe,
      if_neg (not_lt.mpr hpos.le), if_neg hpos.ne', ← EReal.coe_mul]
  refine ⟨_, B - M * (G * (Real.sqrt (V + e))⁻¹), hsc, by rw [hsc, hM, hB, ← EReal.coe_mul, ← EReal.coe_sub], fun n => ?_⟩
  rw [rBn, rVar, hV, hce, ← EReal.coe_add, Ideal.sqrt_coe, if_neg (not_lt.mpr hpos.le), hM, hG, hB, hr n, ← EReal.coe_sub,
    div_coe_coe _ hs.ne', ← EReal.coe_mul, ← EReal.coe_add, ← EReal.coe_mul, ← EReal.coe_add]
  congr 1
  rw [div_eq_mul_inv]
  ring

theorem rBn_real (n : Fin 20000) : IsR (rBn x g b n q) := by
  obtain ⟨s, t, -, -, h⟩ := bn_fold x g b q hx hg hb
  rw [h n]
  exact ((hx n).mul ⟨s, rfl⟩).add ⟨t, rfl⟩

end Cert.Spec
-- ==== Proof.Ref.Read.lean ====
import proofs.«145576_g33105607918058_cont_8to1_b_384_29_alg».proof.Proof.Ref.Ops
import proofs.«145576_g33105607918058_cont_8to1_b_384_29_alg».proof.Proof.Gen.ReferenceIdeal
import proofs.«145576_g33105607918058_cont_8to1_b_384_29_alg».proof.Proof.Spec
import proofs.«145576_g33105607918058_cont_8to1_b_384_29_alg».proof.Proof.Arr
import proofs.«145576_g33105607918058_cont_8to1_b_384_29_alg».proof.Proof.LibMatmulPlain
import proofs.«145576_g33105607918058_cont_8to1_b_384_29_alg».proof.Proof.Math.LibBatchNorm
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefRead

open Cert.ReferenceIdeal Cert.ReferenceIdeal.RefRun
open Idealize.ShloMosaic Idealize.ShloMosaic.TcCoe Idealize.ShloMosaic.StableHlo Idealize.ShloMosaic.ValueIdx Cert.Spec
open scoped BigOperators
open Cert.ReferenceIdeal.Facts₀ Cert.ReferenceIdeal.Facts

section Generic
variable {A C : ℕ} {α : Type}

theorem bcast_ite (q : Fin C) : q.val = if C = 1 then 0 else q.val := by
  split
  · have := q.isLt; omega
  · rfl

theorem bcast_row_apply (h : (⟨1, ![C]⟩ : Shape).BroadcastsInDim ⟨2, ![1, C]⟩ ![1])
    (x : (⟨1, ![C]⟩ : Shape).Idx → α) (i : Fin 1) (q : Fin C) :
    broadcastInDim ⟨2, ![1, C]⟩ ![1] h x (ix2 i q) = x (ix1 q) :=
  broadcastInDim_apply _ h x _ _ fun a => match a with | ⟨0, _⟩ => bcast_ite q

theorem bcast_rows_apply (h : (⟨2, ![1, C]⟩ : Shape).BroadcastsInDim ⟨2, ![A, C]⟩ ![0, 1])
    (x : (⟨2, ![1, C]⟩ : Shape).Idx → α) (n : Fin A) (q : Fin C) :
    broadcastInDim ⟨2, ![A, C]⟩ ![0, 1] h x (ix2 n q) = x (ix2 (0 : Fin 1) q) :=
  broadcastInDim_apply _ h x _ _ fun a => match a with | ⟨0, _⟩ => rfl | ⟨1, _⟩ => bcast_ite q

theorem colsum_apply (x : FVec Ideal ⟨2, ![A, C]⟩ .f32)
    (h' : (⟨2, ![A, C]⟩ : Shape).ReducesTo [0] ⟨1, ![C]⟩) (hu : 0 < S_.numel) (q : Fin C) :
    Host.reduceAdd x (constant S_ .f32 0x00000000#32) h' hu (ix1 q) = ∑ n : Fin A, x (ix2 n q) := by
  have h : (⟨2, ![A, C]⟩ : Shape).Reduces [0] ⟨1, ![C]⟩ := ⟨h'.1, Nat.one_pos, h'.2⟩
  rw [hostReduceAdd_apply, Ideal.hostReduceAdd_single h' h, constant_apply, Ideal.ofBits_zero_f32, zero_add]
  refine Finset.sum_congr rfl fun n _ => congrArg x ?_
  funext c
  match c with
  | ⟨0, _⟩ => rfl
  | ⟨1, _⟩ => rfl

theorem hostSqrt_apply {s : Shape} (x : FVec Ideal s .f32) (i : s.Idx) : Host.sqrt x i = Ideal.sqrt (x i) := rfl

/-- Two indices of one row agree on every axis but the column's. -/
theorem off_axis {M w T : ℕ} (n : Fin M) (j : Fin w) (col : Fin T) (c : Fin 2) (hne : c ≠ 1) :
    (ix2 n j c).val = (ix2 n col c).val :=
  match c, hne with
  | ⟨0, _⟩, _ => rfl
  | ⟨1, _⟩, h => absurd rfl h

end Generic

theorem divisor_eq :
    (subf (constant S_ .f32 0x469C4000#32) (sitofp .f32 (constantI S_ 32 0#32)) : FVec Ideal S_ .f32) ix0 = cN := by
  show Ideal.ofBits .f32 0x469C4000#32 - ((((0#32 : BitVec 32).toInt : ℤ) : ℝ) : EReal) = cN
  rw [BitVec.toInt_zero, Int.cast_zero, EReal.coe_zero, sub_zero]

theorem guard_eq : Ideal.cmp .ogt cN (Ideal.ofBits .f32 0x00000000#32) = 1#1 := by
  rw [Ideal.ofBits_zero_f32, BatchNorm.cN_eq]
  have h : (0 : EReal) < ((20000 : ℝ) : EReal) := by exact_mod_cast (by norm_num : (0 : ℝ) < 20000)
  simp [Ideal.cmp, h]

section BatchNorm
variable {C : ℕ}
  (hrt : (⟨2, ![20000, C]⟩ : Shape).ReducesTo [0] ⟨1, ![C]⟩)
  (hu : 0 < S_.numel)
  (hS : S_.BroadcastsInDim ⟨1, ![C]⟩ ![])
  (hK : (⟨1, ![C]⟩ : Shape).BroadcastsInDim ⟨2, ![1, C]⟩ ![1])
  (hSK : S_.BroadcastsInDim ⟨2, ![1, C]⟩ ![])
  (hX : (⟨2, ![1, C]⟩ : Shape).BroadcastsInDim ⟨2, ![20000, C]⟩ ![0, 1])
  (x : FVec Ideal ⟨2, ![20000, C]⟩ .f32) (g b : FVec Ideal ⟨1, ![C]⟩ .f32)

def meanV : FVec Ideal ⟨1, ![C]⟩ .f32 :=
  Host.divf (Host.reduceAdd x (constant S_ .f32 0x00000000#32) hrt hu)
    (broadcastInDim ⟨1, ![C]⟩ ![] hS (constant S_ .f32 0x469C4000#32))

theorem meanV_apply (q : Fin C) :
    meanV hrt hu hS x (ix1 q) = rMean (a2 x) q := by
  unfold meanV
  rw [hostDivf_apply, colsum_apply, broadcastInDim_scalar_apply, constant_apply]
  rfl

def devV : FVec Ideal ⟨2, ![20000, C]⟩ .f32 :=
  subf x (broadcastInDim ⟨2, ![20000, C]⟩ ![0, 1] hX
    (Host.divf
      (broadcastInDim ⟨2, ![1, C]⟩ ![1] hK (Host.reduceAdd x (constant S_ .f32 0x00000000#32) hrt hu))
      (broadcastInDim ⟨2, ![1, C]⟩ ![] hSK (constant S_ .f32 0x469C4000#32))))

theorem devV_apply (n : Fin 20000) (q : Fin C) :
    devV hrt hu hK hSK hX x (ix2 n q) = x (ix2 n q) - rMean (a2 x) q := by
  unfold devV
  rw [subf_apply, bcast_rows_apply, hostDivf_apply, bcast_row_apply, colsum_apply, broadcastInDim_scalar_apply, constant_apply]
  rfl

def varV : FVec Ideal ⟨1, ![C]⟩ .f32 :=
  select
    (broadcastInDim ⟨1, ![C]⟩ ![] hS
      (cmpf .ogt (subf (constant (F := Ideal) S_ .f32 0x469C4000#32) (sitofp .f32 (constantI S_ 32 0#32)))
        (constant S_ .f32 0x00000000#32)))
    (Host.divf
      (Host.reduceAdd (mulf (devV hrt hu hK hSK hX x) (devV hrt hu hK hSK hX x)) (constant S_ .f32 0x00000000#32) hrt hu)
      (broadcastInDim ⟨1, ![C]⟩ ![] hS
        (subf (constant S_ .f32 0x469C4000#32) (sitofp .f32 (constantI S_ 32 0#32)))))
    (broadcastInDim ⟨1, ![C]⟩ ![] hS (id (constant S_ .f32 0x7FC00000#32)))

theorem varV_apply (q : Fin C) :
    varV hrt hu hS hK hSK hX x (ix1 q) = rVar (a2 x) q := by
  unfold varV
  rw [select_apply, broadcastInDim_scalar_apply, cmpf_apply, Ideal.cmpf_def, divisor_eq, constant_apply, guard_eq, select_one,
    hostDivf_apply, colsum_apply, broadcastInDim_scalar_apply, divisor_eq]
  unfold rVar
  refine congrArg (fun s => Ideal.div s cN) (Finset.sum_congr rfl fun n _ => ?_)
  rw [mulf_apply, devV_apply]

def bnV : FVec Ideal ⟨2, ![20000, C]⟩ .f32 :=
  addf
    (mulf
      (Host.divf
        (subf x (broadcastInDim ⟨2, ![20000, C]⟩ ![0, 1] hX
          (broadcastInDim ⟨2, ![1, C]⟩ ![1] hK (meanV hrt hu hS x))))
        (broadcastInDim ⟨2, ![20000, C]⟩ ![0, 1] hX
          (broadcastInDim ⟨2, ![1, C]⟩ ![1] hK
            (Host.sqrt (addf (varV hrt hu hS hK hSK hX x)
              (broadcastInDim ⟨1, ![C]⟩ ![] hS (constant S_ .f32 0x3727C5AC#32)))))))
      (broadcastInDim ⟨2, ![20000, C]⟩ ![0, 1] hX (broadcastInDim ⟨2, ![1, C]⟩ ![1] hK g)))
    (broadcastInDim ⟨2, ![20000, C]⟩ ![0, 1] hX (broadcastInDim ⟨2, ![1, C]⟩ ![1] hK b))

theorem bnV_apply (n : Fin 20000) (q : Fin C) :
    bnV hrt hu hS hK hSK hX x g b (ix2 n q)
      = rBn (a2 x) (a1 g) (a1 b) n q := by
  unfold bnV
  rw [addf_apply, mulf_apply, hostDivf_apply, subf_apply, bcast_rows_apply, bcast_row_apply, meanV_apply,
    bcast_rows_apply, bcast_row_apply, bcast_rows_apply, bcast_row_apply, bcast_rows_apply, bcast_row_apply]
  rw [hostSqrt_apply, addf_apply, varV_apply, broadcastInDim_scalar_apply, constant_apply]
  rfl

end BatchNorm

section Linear
variable {M K N : ℕ} (D : DotDims ⟨2, ![M, K]⟩ ⟨2, ![K, N]⟩ ⟨2, ![M, N]⟩)
  (htr : (⟨2, ![N, K]⟩ : Shape).Transposes [1, 0] ⟨2, ![K, N]⟩)
  (hK : (⟨1, ![N]⟩ : Shape).BroadcastsInDim ⟨2, ![1, N]⟩ ![1])
  (hX : (⟨2, ![1, N]⟩ : Shape).BroadcastsInDim ⟨2, ![M, N]⟩ ![0, 1])
  (X : FVec Ideal ⟨2, ![M, K]⟩ .f32) (W : FVec Ideal ⟨2, ![N, K]⟩ .f32) (bias : FVec Ideal ⟨1, ![N]⟩ .f32)

/-- A linear layer: the product with the transposed weight, plus the bias along every row. -/
def linV : FVec Ideal ⟨2, ![M, N]⟩ .f32 :=
  addf (Host.dotGeneral D none X (transpose ⟨2, ![K, N]⟩ [1, 0] W htr))
    (broadcastInDim ⟨2, ![M, N]⟩ ![0, 1] hX (broadcastInDim ⟨2, ![1, N]⟩ ![1] hK bias))

theorem linear_apply (hD : Cert.Gcn.IsPlain D) (n : Fin M) (r : Fin N) :
    linV D htr hK hX X W bias (ix2 n r) = (∑ k : Fin K, X (ix2 n k) * W (ix2 r k)) + bias (ix1 r) := by
  unfold linV
  rw [addf_apply, Cert.Gcn.dotGeneral_plain_apply D hD, bcast_rows_apply, bcast_row_apply]
  refine congrArg (fun s => s + bias (ix1 r)) (Finset.sum_congr rfl fun k _ => ?_)
  rw [transpose_ix2_apply]

theorem relu_apply (x : FVec Ideal ⟨2, ![M, N]⟩ .f32) (hb : S_.BroadcastsInDim ⟨2, ![M, N]⟩ ![])
    (n : Fin M) (r : Fin N) :
    maximumf x (broadcastInDim ⟨2, ![M, N]⟩ ![] hb (constant S_ .f32 0x00000000#32)) (ix2 n r)
      = max (x (ix2 n r)) 0 := by
  rw [maximumf_apply, broadcastInDim_scalar_apply, constant_apply, Ideal.ofBits_zero_f32]

end Linear

section Stages

theorem plain0 : Cert.Gcn.IsPlain dot_S20000x36_S36x200_S20000x200_1_0_0_1_n_n := ⟨rfl, rfl, rfl, rfl, rfl, rfl⟩
theorem plain1 : Cert.Gcn.IsPlain dot_S20000x4_S4x128_S20000x128_1_0_0_1_n_n := ⟨rfl, rfl, rfl, rfl, rfl, rfl⟩
theorem plain2 : Cert.Gcn.IsPlain dot_S20000x2376_S2376x1024_S20000x1024_1_0_0_1_n_n := ⟨rfl, rfl, rfl, rfl, rfl, rfl⟩
theorem plain3 : Cert.Gcn.IsPlain dot_S20000x1024_S1024x37_S20000x37_1_0_0_1_n_n := ⟨rfl, rfl, rfl, rfl, rfl, rfl⟩

variable (b : FVec Ideal S20000x5 .f32)

def boxV : FVec Ideal S20000x4 .f32 :=
  extractStridedSlice S20000x4 ![0, 1] b slices_S20000x5_S20000x4_0_1

def whV : FVec Ideal S20000x2 .f32 :=
  addf (subf (extractStridedSlice S20000x2 ![0, 2] (boxV b) slices_S20000x4_S20000x2_0_2)
      (extractStridedSlice S20000x2 ![0, 0] (boxV b) slices_S20000x4_S20000x2_0_0))
    (broadcastInDim S20000x2 ![] bcast_S_S20000x2 (constant S_ .f32 0x3F800000#32))

def ctrV : FVec Ideal S20000x2 .f32 :=
  addf (extractStridedSlice S20000x2 ![0, 0] (boxV b) slices_S20000x4_S20000x2_0_0)
    (mulf (broadcastInDim S20000x2 ![] bcast_S_S20000x2 (constant S_ .f32 0x3F000000#32)) (whV b))

def cat2V (a b : FVec Ideal S20000x2 .f32) : FVec Ideal S20000x4 .f32 :=
  concatenate S20000x4 1 [⟨S20000x2, a⟩, ⟨S20000x2, b⟩] concatenates_S20000x2_S20000x2_S20000x4_d1

def csV : FVec Ideal S20000x4 .f32 :=
  cat2V (ctrV b) (whV b)

theorem whV_apply (n : Fin 20000) (j : Fin 2) :
    whV b (ix2 n j) = rWh (a2 b) n j := by
  unfold whV boxV rWh
  rw [addf_apply, subf_apply, slice2_axis1_eq, slice2_axis1_eq, slice2_axis1_eq, slice2_axis1_eq, broadcastInDim_scalar_apply,
    constant_apply]
  refine congrArg₂ (· + ·) (congrArg₂ (· - ·) (congrArg b (congrArg (ix2 n) (Fin.ext ?_))) (congrArg b (congrArg (ix2 n) (Fin.ext ?_)))) rfl
  · show 1 + (2 + j.val) = j.val + 3
    omega
  · show 1 + (0 + j.val) = j.val + 1
    omega

theorem ctrV_apply (n : Fin 20000) (j : Fin 2) :
    ctrV b (ix2 n j) = rCtr (a2 b) n j := by
  unfold ctrV rCtr
  rw [addf_apply, mulf_apply, whV_apply, broadcastInDim_scalar_apply, constant_apply]
  unfold boxV
  rw [slice2_axis1_eq, slice2_axis1_eq]
  refine congrArg₂ (· + ·) (congrArg b (congrArg (ix2 n) (Fin.ext ?_))) rfl
  show 1 + (0 + j.val) = j.val + 1
  omega

theorem csV_apply (n : Fin 20000) (q : Fin 4) :
    csV b (ix2 n q) = rCs (a2 b) n q := by
  unfold csV cat2V rCs
  by_cases h : q.val < 2
  · rw [dif_pos h]
    refine (concatenate_pair_apply_left (t := S20000x4) (1 : Fin 2) (ctrV b) (whV b) concatenates_S20000x2_S20000x2_S20000x4_d1 (ix2 n q) rfl
      (ix2 n (⟨q.val, h⟩ : Fin 2)) fun c => ?_).trans (ctrV_apply b n _)
    match c with
    | ⟨0, _⟩ => rfl
    | ⟨1, _⟩ => rfl
  · rw [dif_neg h]
    refine (concatenate_pair_apply_right (t := S20000x4) (1 : Fin 2) (ctrV b) (whV b) concatenates_S20000x2_S20000x2_S20000x4_d1 (ix2 n q) rfl rfl
      (ix2 n (⟨q.val - 2, by omega⟩ : Fin 2)) (off_axis n _ q) ?_).trans (whV_apply b n _)
    show q.val - 2 + 2 = q.val
    omega

end Stages

section Stages2

section
variable (dist : FVec Ideal S20000x36 .f32) (We : FVec Ideal S36x200 .f32)

def oeV : FVec Ideal S20000x200 .f32 :=
  Host.dotGeneral dot_S20000x36_S36x200_S20000x200_1_0_0_1_n_n none dist We

theorem oeV_apply (n : Fin 20000) (q : Fin 200) :
    oeV dist We (ix2 n q) = rOe (a2 dist) (a2 We) n q :=
  Cert.Gcn.dotGeneral_plain_apply _ plain0 none dist We n q

end

def bn4V (x : FVec Ideal S20000x4 .f32) (g b : FVec Ideal S4 .f32) : FVec Ideal S20000x4 .f32 :=
  bnV reducesTo_S20000x4_S4_d0 h_S_ bcast_S_S4 bcast_S4_S1x4_1 bcast_S_S1x4 bcast_S1x4_S20000x4_0_1 x g b

section
variable (bn : FVec Ideal S20000x4 .f32) (w : FVec Ideal S128x4 .f32) (bias : FVec Ideal S128 .f32)

def peV : FVec Ideal S20000x128 .f32 :=
  maximumf
    (linV dot_S20000x4_S4x128_S20000x128_1_0_0_1_n_n transposes_S128x4_S4x128_1_0 bcast_S128_S1x128_1 bcast_S1x128_S20000x128_0_1 bn w bias)
    (broadcastInDim S20000x128 ![] bcast_S_S20000x128 (constant S_ .f32 0x00000000#32))

theorem peV_apply (n : Fin 20000) (l : Fin 128) :
    peV bn w bias (ix2 n l) = max ((∑ q : Fin 4, bn (ix2 n q) * w (ix2 l q)) + bias (ix1 l)) 0 := by
  unfold peV
  rw [relu_apply, linear_apply _ _ _ _ _ _ _ plain1]

end

section
variable (feat : FVec Ideal S20000x2048 .f32) (oe : FVec Ideal S20000x200 .f32) (pe : FVec Ideal S20000x128 .f32)

def ofV : FVec Ideal S20000x2376 .f32 :=
  concatenate S20000x2376 1 [⟨S20000x2048, feat⟩, ⟨S20000x200, oe⟩, ⟨S20000x128, pe⟩]
    concatenates_S20000x2048_S20000x200_S20000x128_S20000x2376_d1

theorem ofV_apply (n : Fin 20000) (col : Fin 2376) :
    ofV feat oe pe (ix2 n col)
      = rOf (a2 feat) (a2 oe) (a2 pe) n col := by
  unfold ofV rOf
  have P := concatenate_apply_piece (t := S20000x2376) (1 : Fin 2) [⟨S20000x2048, feat⟩, ⟨S20000x200, oe⟩, ⟨S20000x128, pe⟩]
    concatenates_S20000x2048_S20000x200_S20000x128_S20000x2376_d1 (ix2 n col)
  have := col.isLt
  split_ifs with h h'
  · exact P 0 (by simp) S20000x2048 feat rfl rfl 0 rfl (ix2 n (⟨col.val, h⟩ : Fin 2048)) (off_axis n _ col)
      (by show 0 + col.val = col.val; omega)
  · exact P 1 (by simp) S20000x200 oe rfl rfl 2048 rfl (ix2 n (⟨col.val - 2048, by omega⟩ : Fin 200)) (off_axis n _ col)
      (by show 2048 + (col.val - 2048) = col.val; omega)
  · exact P 2 (by simp) S20000x128 pe rfl rfl 2248 rfl (ix2 n (⟨col.val - 2248, by omega⟩ : Fin 128)) (off_axis n _ col)
      (by show 2248 + (col.val - 2248) = col.val; omega)

end

section
variable (x : FVec Ideal S20000x2376 .f32) (W1 : FVec Ideal S1024x2376 .f32) (b1 : FVec Ideal S1024 .f32)

def zV : FVec Ideal S20000x1024 .f32 :=
  linV dot_S20000x2376_S2376x1024_S20000x1024_1_0_0_1_n_n transposes_S1024x2376_S2376x1024_1_0 bcast_S1024_S1x1024_1
    bcast_S1x1024_S20000x1024_0_1 x W1 b1

theorem zV_apply (n : Fin 20000) (r : Fin 1024) :
    zV x W1 b1 (ix2 n r) = (∑ col : Fin 2376, x (ix2 n col) * W1 (ix2 r col)) + b1 (ix1 r) :=
  linear_apply _ _ _ _ x W1 b1 plain2 n r

end

def bn1024V (x : FVec Ideal S20000x1024 .f32) (g b : FVec Ideal S1024 .f32) : FVec Ideal S20000x1024 .f32 :=
  bnV reducesTo_S20000x1024_S1024_d0 h_S_ bcast_S_S1024 bcast_S1024_S1x1024_1 bcast_S_S1x1024 bcast_S1x1024_S20000x1024_0_1 x g b

section
variable (y : FVec Ideal S20000x1024 .f32) (W2 : FVec Ideal S37x1024 .f32) (b2 : FVec Ideal S37 .f32)

def resV : FVec Ideal S20000x37 .f32 :=
  linV dot_S20000x1024_S1024x37_S20000x37_1_0_0_1_n_n transposes_S37x1024_S1024x37_1_0 bcast_S37_S1x37_1 bcast_S1x37_S20000x37_0_1
    (maximumf y (broadcastInDim S20000x1024 ![] bcast_S_S20000x1024 (constant S_ .f32 0x00000000#32))) W2 b2

theorem resV_apply (n : Fin 20000) (j : Fin 37) :
    resV y W2 b2 (ix2 n j) = (∑ r : Fin 1024, max (y (ix2 n r)) 0 * W2 (ix2 j r)) + b2 (ix1 j) := by
  unfold resV
  rw [linear_apply _ _ _ _ _ _ _ plain3]
  refine congrArg (fun s => s + b2 (ix1 j)) (Finset.sum_congr rfl fun r _ => ?_)
  rw [relu_apply]

end

variable (dist : FVec Ideal S20000x36 .f32) (boxes : FVec Ideal S20000x5 .f32) (feat : FVec Ideal S20000x2048 .f32)
    (We : FVec Ideal S36x200 .f32) (g4 be4 : FVec Ideal S4 .f32) (posW : FVec Ideal S128x4 .f32) (posb : FVec Ideal S128 .f32)
    (W1 : FVec Ideal S1024x2376 .f32) (b1 g2 be2 : FVec Ideal S1024 .f32) (W2 : FVec Ideal S37x1024 .f32) (b2 : FVec Ideal S37 .f32)

def outV : FVec Ideal S20000x37 .f32 :=
  resV (bn1024V (zV (ofV feat (oeV dist We) (peV (bn4V (csV boxes) g4 be4) posW posb)) W1 b1) g2 be2) W2 b2

theorem outV_eq :
    a2 (outV dist boxes feat We g4 be4 posW posb W1 b1 g2 be2 W2 b2)
      = outR (a2 dist) (a2 boxes) (a2 feat)
          (a2 We) (a1 g4) (a1 be4) (a2 posW) (a1 posb)
          (a2 W1) (a1 b1) (a1 g2) (a1 be2)
          (a2 W2) (a1 b2) := by
  have hcs : a2 (csV boxes) = rCs (a2 boxes) :=
    funext₂ (csV_apply boxes)
  have hbn : a2 (bn4V (csV boxes) g4 be4)
      = rBn (rCs (a2 boxes)) (a1 g4) (a1 be4) := by
    rw [← hcs]
    exact funext₂ (bnV_apply _ _ _ _ _ _ (csV boxes) g4 be4)
  have hpe : a2 (peV (bn4V (csV boxes) g4 be4) posW posb)
      = rPe (a2 boxes) (a1 g4) (a1 be4) (a2 posW) (a1 posb) := by
    funext n l
    unfold rPe
    rw [← hbn]
    exact peV_apply _ posW posb n l
  have hoe : a2 (oeV dist We) = rOe (a2 dist) (a2 We) :=
    funext₂ (oeV_apply dist We)
  have hof : a2 (ofV feat (oeV dist We) (peV (bn4V (csV boxes) g4 be4) posW posb))
      = rOf (a2 feat) (rOe (a2 dist) (a2 We))
          (rPe (a2 boxes) (a1 g4) (a1 be4) (a2 posW) (a1 posb)) := by
    rw [← hoe, ← hpe]
    exact funext₂ (ofV_apply feat _ _)
  have hz : a2 (zV (ofV feat (oeV dist We) (peV (bn4V (csV boxes) g4 be4) posW posb)) W1 b1)
      = rZ (a2 feat) (rOe (a2 dist) (a2 We))
          (rPe (a2 boxes) (a1 g4) (a1 be4) (a2 posW) (a1 posb))
          (a2 W1) (a1 b1) := by
    funext n r
    unfold rZ
    rw [← hof]
    exact zV_apply _ W1 b1 n r
  funext n j
  unfold outR rOut outV
  rw [← hz]
  refine (resV_apply _ W2 b2 n j).trans ?_
  refine congrArg (fun s => s + b2 (ix1 j)) (Finset.sum_congr rfl fun r _ => ?_)
  rw [show bn1024V (zV (ofV feat (oeV dist We) (peV (bn4V (csV boxes) g4 be4) posW posb)) W1 b1) g2 be2 (ix2 n r)
      = rBn (a2 (zV (ofV feat (oeV dist We) (peV (bn4V (csV boxes) g4 be4) posW posb)) W1 b1))
          (a1 g2) (a1 be2) n r from bnV_apply _ _ _ _ _ _ _ g2 be2 n r]

end Stages2

theorem concat_result' (hxs hy) (W : Valuation τ sig (Elt Ideal)) :
    (nary (τ := τ) ![main_arg2, main_v0, main_v36] main_v37
        (fun u => concatenate S20000x2376 1 [⟨S20000x2048, u 0⟩, ⟨S20000x200, u 1⟩, ⟨S20000x128, u 2⟩]
          concatenates_S20000x2048_S20000x200_S20000x128_S20000x2376_d1) hxs hy).result W (no_index (Proc.devRef .tc main_v37))
      = ofV (W (Proc.devRef .tc main_arg2)) (W (Proc.devRef .tc main_v0)) (W (Proc.devRef .tc main_v36)) :=
  (nary_result _ _ _ hxs hy W).trans rfl

set_option maxHeartbeats 4000000 in
theorem ref_value (V : Valuation τ sig (Elt Ideal)) :
    a2 (A := 20000) (B := 37) (after (ops (F := Ideal)) V (main_v67 : DevRef τ sig))
      = outR (a2 (A := 20000) (B := 36) (V (main_arg0 : DevRef τ sig))) (a2 (A := 20000) (B := 5) (V (main_arg1 : DevRef τ sig)))
          (a2 (A := 20000) (B := 2048) (V (main_arg2 : DevRef τ sig))) (a2 (A := 36) (B := 200) (V (main_arg4 : DevRef τ sig)))
          (a1 (A := 4) (V (main_arg5 : DevRef τ sig))) (a1 (A := 4) (V (main_arg6 : DevRef τ sig)))
          (a2 (A := 128) (B := 4) (V (main_arg7 : DevRef τ sig))) (a1 (A := 128) (V (main_arg8 : DevRef τ sig)))
          (a2 (A := 1024) (B := 2376) (V (main_arg9 : DevRef τ sig))) (a1 (A := 1024) (V (main_arg10 : DevRef τ sig)))
          (a1 (A := 1024) (V (main_arg11 : DevRef τ sig))) (a1 (A := 1024) (V (main_arg12 : DevRef τ sig)))
          (a2 (A := 37) (B := 1024) (V (main_arg13 : DevRef τ sig))) (a1 (A := 37) (V (main_arg14 : DevRef τ sig))) := by
  refine (congrArg a2 ?_).trans (outV_eq _ _ _ _ _ _ _ _ _ _ _ _ _ _)
  simp (disch := decide) only [after_cons, after_nil,
      nullary_result', unary_result', binary_result', ternary_result', concat_result',
      nullary_result_ne', unary_result_ne', binary_result_ne', ternary_result_ne', nary_result_ne']
  rfl

end Cert.ReferenceIdeal.RefRead

end
-- ==== Proof.Finite.lean ====
import proofs.«145576_g33105607918058_cont_8to1_b_384_29_alg».proof.Pre_finite_inputs
import proofs.«145576_g33105607918058_cont_8to1_b_384_29_alg».proof.Proof.Gen.Pre_finite_inputs
import proofs.«145576_g33105607918058_cont_8to1_b_384_29_alg».proof.Proof.Spec
import proofs.«145576_g33105607918058_cont_8to1_b_384_29_alg».proof.Proof.Arr
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Spec
open Cert.Pre_finite_inputs Cert.Pre_finite_inputs.Facts

instance subsingleton_scalar_idx : Subsingleton S_.Idx := ⟨fun a b => funext fun d => d.elim0⟩

/-- Both infinities have absolute value +∞, so an entry whose absolute value is strictly below +∞ is a real number. -/
theorem real_of_all {S : Shape} {axes : List (Fin S.rank)} {dims : Fin S_.rank → Fin S.rank} {x : FVec Ideal S .f32}
    {hb : S_.BroadcastsInDim S dims} {hr : S.ReducesTo axes S_} {hu : 0 < S_.numel}
    (h : Host.reduce IntOp.andi
          (cmpf .olt (Host.absf x) (broadcastInDim S dims hb (constant (F := Ideal) S_ .f32 0x7F800000#32)))
          (constantI S_ 1 1#1) hr hu ix0 = 1#1) (i : S.Idx) : ∃ r : ℝ, x i = (r : EReal) := by
  have h : Ideal.cmp .olt (max (x i) (-(x i))) (Ideal.ofBits .f32 0x7F800000#32) = 1#1 :=
    Host.reduce_andi_all _ _ hr hu ix0 h i
  rw [show Ideal.ofBits .f32 0x7F800000#32 = ⊤ by simp [Ideal.ofBits, Ideal.ieee]] at h
  generalize x i = y at h ⊢
  induction y using EReal.rec with
  | bot => simp [Ideal.cmp] at h
  | coe r => exact ⟨r, rfl⟩
  | top => simp [Ideal.cmp] at h

theorem and_ix0 (p q : IVec S_ 1) : andi p q ix0 = 1#1 ↔ p ix0 = 1#1 ∧ q ix0 = 1#1 := IntOp.andi_eq_one

theorem real_of_pre [hP : Cert.Pre_finite_inputs.Facts]
    (x0 : FVec Ideal S20000x36 .f32) (x1 : FVec Ideal S20000x5 .f32) (x2 : FVec Ideal S20000x2048 .f32)
    (x3 : IVec S20000 32) (x4 : FVec Ideal S36x200 .f32) (x5 : FVec Ideal S4 .f32) (x6 : FVec Ideal S4 .f32)
    (x7 : FVec Ideal S128x4 .f32) (x8 : FVec Ideal S128 .f32) (x9 : FVec Ideal S1024x2376 .f32)
    (x10 : FVec Ideal S1024 .f32) (x11 : FVec Ideal S1024 .f32) (x12 : FVec Ideal S1024 .f32)
    (x13 : FVec Ideal S37x1024 .f32) (x14 : FVec Ideal S37 .f32)
    (h : fn (F := Ideal) x0 x1 x2 x3 x4 x5 x6 x7 x8 x9 x10 x11 x12 x13 x14 = fun _ => 1#1) :
    Real2 (a2 (A := 20000) (B := 36) x0) ∧ Real2 (a2 (A := 20000) (B := 5) x1) ∧ Real2 (a2 (A := 20000) (B := 2048) x2)
      ∧ Real2 (a2 (A := 36) (B := 200) x4) ∧ Real1 (a1 (A := 4) x5) ∧ Real1 (a1 (A := 4) x6) ∧ Real2 (a2 (A := 128) (B := 4) x7)
      ∧ Real1 (a1 (A := 128) x8) ∧ Real2 (a2 (A := 1024) (B := 2376) x9) ∧ Real1 (a1 (A := 1024) x10) ∧ Real1 (a1 (A := 1024) x11)
      ∧ Real1 (a1 (A := 1024) x12) ∧ Real2 (a2 (A := 37) (B := 1024) x13) ∧ Real1 (a1 (A := 37) x14) := by
  have h0 := congrFun h ix0
  dsimp only [fn, fn_part1, fn_part2, fn_part3, fn_part4] at h0
  simp only [and_ix0] at h0
  obtain ⟨⟨⟨⟨⟨⟨⟨⟨⟨⟨⟨⟨⟨e0, e1⟩, e2⟩, e4⟩, e5⟩, e6⟩, e7⟩, e8⟩, e9⟩, e10⟩, e11⟩, e12⟩, e13⟩, e14⟩ := h0
  exact ⟨fun _ _ => real_of_all e0 _, fun _ _ => real_of_all e1 _, fun _ _ => real_of_all e2 _, fun _ _ => real_of_all e4 _,
    fun _ => real_of_all e5 _, fun _ => real_of_all e6 _, fun _ _ => real_of_all e7 _, fun _ => real_of_all e8 _,
    fun _ _ => real_of_all e9 _, fun _ => real_of_all e10 _, fun _ => real_of_all e11 _, fun _ => real_of_all e12 _,
    fun _ _ => real_of_all e13 _, fun _ => real_of_all e14 _⟩

end Cert.Finite

end
-- ==== Proof.Math.Pack.lean ====
import proofs.«145576_g33105607918058_cont_8to1_b_384_29_alg».proof.Proof.Spec
import Mathlib.Algebra.BigOperators.Group.Finset.Basic
import Mathlib.Algebra.BigOperators.Fin
import Mathlib.Data.Fintype.BigOperators

namespace Cert.Spec

open Idealize.ShloMosaic

-- Box n = 32a + g is named exactly once by (row a, group g).
theorem sum_pack {M : Type*} [AddCommMonoid M] (f : Fin 20000 → M) :
    (∑ g : Fin 32, ∑ a : Fin 625, f ⟨32 * a.val + g.val, by omega⟩) = ∑ n, f n := by
  rw [Finset.sum_comm, ← Fintype.sum_prod_type' fun (a : Fin 625) (g : Fin 32) => f ⟨32 * a.val + g.val, by omega⟩]
  exact Fintype.sum_equiv (finProdFinEquiv (m := 625) (n := 32)) _ _ fun _ => congrArg f (Fin.ext (Nat.add_comm _ _))

variable (boxes : Fin 20000 → Fin 5 → EReal)

theorem pack_at (a : Fin 625) (l : Fin 160) (g : Fin 32) (j : Fin 5)
    (hg : l.val / 5 = g.val) (hj : l.val % 5 = j.val) :
    pack boxes a l = boxes ⟨32 * a.val + g.val, by omega⟩ j :=
  congrArg₂ boxes (Fin.ext (by show 32 * a.val + l.val / 5 = 32 * a.val + g.val; omega)) (Fin.ext hj)

-- Lane j + 1 of group g holds component j + 1 of box 32a + g and, two lanes on (no wrap), component j + 3.
theorem wc_pack (a : Fin 625) (g : Fin 32) (j : Fin 2) (l : Fin 160)
    (hl : l.val = j.val + 1) :
    whP (pack boxes) a (lane l (5 * g.val)) = rWh boxes ⟨32 * a.val + g.val, by omega⟩ j ∧
      ctrP (pack boxes) a (lane l (5 * g.val)) = rCtr boxes ⟨32 * a.val + g.val, by omega⟩ j := by
  have h1 := pack_at boxes a (lane (lane l (5 * g.val)) 2) g ⟨j.val + 3, by omega⟩
    (by simp only [lane]; omega) (by simp only [lane]; omega)
  have h2 := pack_at boxes a (lane l (5 * g.val)) g ⟨j.val + 1, by omega⟩
    (by simp only [lane]; omega) (by simp only [lane]; omega)
  unfold ctrP whP rCtr rWh
  rw [h1, h2]
  exact ⟨rfl, rfl⟩

theorem gsum_lane (l : Fin 160) (v : Fin 625 → Fin 160 → EReal) (w : Fin 20000 → EReal)
    (h : ∀ (a : Fin 625) (g : Fin 32), v a (lane l (5 * g.val)) = w ⟨32 * a.val + g.val, by omega⟩) :
    gsum (fun l' => ∑ a : Fin 625, v a l') l = ∑ n, w n := by
  unfold gsum
  rw [← sum_pack w]
  exact Finset.sum_congr rfl fun g _ => Finset.sum_congr rfl fun a _ => h a g

-- Any lane-wise function of the centre and size terms, summed down the rows and over the groups and read at lanes 1, 2.
theorem sel4_gsum (φ : EReal → EReal) (i : Fin 4) :
    sel4 (gsum fun l => ∑ a : Fin 625, φ (ctrP (pack boxes) a l)) (gsum fun l => ∑ a : Fin 625, φ (whP (pack boxes) a l)) i
      = ∑ n, φ (rCs boxes n i) := by
  unfold sel4 rCs
  by_cases h : i.val < 2
  · simp only [h, if_true, dif_pos]
    exact gsum_lane _ _ _ fun a g => congrArg φ (wc_pack boxes a g ⟨i.val, h⟩ _ rfl).2
  · simp only [h, if_false, dif_neg, not_false_eq_true]
    exact gsum_lane _ _ _ fun a g => congrArg φ
      (wc_pack boxes a g ⟨i.val - 2, by omega⟩ _ (by show i.val - 1 = i.val - 2 + 1; omega)).1

theorem mu4_pack (i : Fin 4) :
    mu4 (pack boxes) i = rMean (rCs boxes) i :=
  congrArg (Ideal.div · cN) (sel4_gsum boxes id i)

theorem ex4_pack (i : Fin 4) :
    ex4 (pack boxes) i = Ideal.div (∑ n : Fin 20000, rCs boxes n i * rCs boxes n i) cN :=
  congrArg (Ideal.div · cN) (sel4_gsum boxes (fun v => v * v) i)

end Cert.Spec
-- ==== Proof.Math.Pe.lean ====
import proofs.«145576_g33105607918058_cont_8to1_b_384_29_alg».proof.Proof.Spec
import proofs.«145576_g33105607918058_cont_8to1_b_384_29_alg».proof.Proof.Math.LibBatchNorm
import proofs.«145576_g33105607918058_cont_8to1_b_384_29_alg».proof.Proof.Math.Pack

namespace Cert.Spec

open Idealize.ShloMosaic

private theorem cHalf_coe : cHalf = (((1 : ℝ) / 2 : ℝ) : EReal) := by
  simp [Ideal.ofBits, Ideal.ieee, -EReal.coe_mul]; norm_num

private theorem cOne_coe : cOne = ((1 : ℝ) : EReal) := by
  simp [Ideal.ofBits, Ideal.ieee, -EReal.coe_mul]; norm_num

section
variable (boxes : Fin 20000 → Fin 5 → EReal)

section
variable (bx : Fin 20000 → Fin 5 → ℝ) (hbx : ∀ n k, boxes n k = (bx n k : EReal)) (n : Fin 20000)
include hbx

private theorem wc_coe (j : Fin 2) :
    rWh boxes n j = ((bx n ⟨j.val + 3, by omega⟩ - bx n ⟨j.val + 1, by omega⟩ + 1 : ℝ) : EReal) ∧
      rCtr boxes n j = ((bx n ⟨j.val + 1, by omega⟩
        + 1 / 2 * (bx n ⟨j.val + 3, by omega⟩ - bx n ⟨j.val + 1, by omega⟩ + 1) : ℝ) : EReal) := by
  unfold rCtr rWh
  rw [hbx, hbx, cOne_coe, cHalf_coe, ← EReal.coe_sub, ← EReal.coe_add, ← EReal.coe_mul, ← EReal.coe_add]
  exact ⟨rfl, rfl⟩

-- Centre and size are affine in the four corners.
private theorem rCs_coe :
    rCs boxes n 0 = ((bx n 1 + 1 / 2 * (bx n 3 - bx n 1 + 1) : ℝ) : EReal) ∧
    rCs boxes n 1 = ((bx n 2 + 1 / 2 * (bx n 4 - bx n 2 + 1) : ℝ) : EReal) ∧
    rCs boxes n 2 = ((bx n 3 - bx n 1 + 1 : ℝ) : EReal) ∧
    rCs boxes n 3 = ((bx n 4 - bx n 2 + 1 : ℝ) : EReal) :=
  ⟨(wc_coe boxes bx hbx n 0).2, (wc_coe boxes bx hbx n 1).2, (wc_coe boxes bx hbx n 0).1, (wc_coe boxes bx hbx n 1).1⟩

end

theorem rCs_real (hb : Real2 boxes) : Real2 (rCs boxes) := by
  choose bx hbx using hb
  intro n q
  obtain ⟨h0, h1, h2, h3⟩ := rCs_coe boxes bx hbx n
  fin_cases q
  exacts [⟨_, h0⟩, ⟨_, h1⟩, ⟨_, h2⟩, ⟨_, h3⟩]

variable (g4 be4 : Fin 4 → EReal) (posW : Fin 128 → Fin 4 → EReal) (posb : Fin 128 → EReal)
  (hb : Real2 boxes) (hg : Real1 g4) (hbe : Real1 be4) (hW : Real2 posW) (hpb : Real1 posb)
include hb hg hbe hW hpb

-- The packed statistics are the column statistics; then both sides are one affine map of the four corners.
theorem pe_eq :
    kPe boxes (kB5 (pack boxes) posW g4) (kCv (pack boxes) posW posb g4 be4) = rPe boxes g4 be4 posW posb := by
  choose s t hs ht hbn using fun q => bn_fold (rCs boxes) g4 be4 q (fun n => rCs_real boxes hb n q) (hg q) (hbe q)
  have hsc (q) : scale4 (pack boxes) g4 q = s q := by
    rw [← hs]; unfold scale4 var4; rw [mu4_pack, ex4_pack]; rfl
  have hsh (q) : shift4 (pack boxes) g4 be4 q = t q := by
    unfold shift4; rw [hsc, mu4_pack, ← hs]; exact ht q
  choose bx hbx using hb
  choose w hw using hW
  choose pb hpbr using hpb
  funext n l
  unfold kPe rPe
  congr 1
  obtain ⟨h0, h1, h2, h3⟩ := rCs_coe boxes bx hbx n
  have h5 : ∑ k : Fin 5, boxes n k * kB5 (pack boxes) posW g4 k l = boxes n 0 * 0
      + boxes n 1 * (cHalf * a4t (pack boxes) posW g4 0 l - a4t (pack boxes) posW g4 2 l)
      + boxes n 2 * (cHalf * a4t (pack boxes) posW g4 1 l - a4t (pack boxes) posW g4 3 l)
      + boxes n 3 * (cHalf * a4t (pack boxes) posW g4 0 l + a4t (pack boxes) posW g4 2 l)
      + boxes n 4 * (cHalf * a4t (pack boxes) posW g4 1 l + a4t (pack boxes) posW g4 3 l) := Fin.sum_univ_five _
  rw [h5, Fin.sum_univ_four]
  unfold kCv beff
  rw [Fin.sum_univ_four]
  simp only [hbn, h0, h1, h2, h3, a4t, hsc, hsh, hw, hpbr, hbx, cHalf_coe, mul_zero, zero_add]
  norm_cast
  ring

theorem rPe_real : Real2 (rPe boxes g4 be4 posW posb) := fun n l =>
  ((IsR.sum _ fun q => (rBn_real (rCs boxes) g4 be4 q (fun n => rCs_real boxes hb n q) (hg q) (hbe q) n).mul
    (hW l q)).add (hpb l)).max0

end

end Cert.Spec
-- ==== Proof.Math.Z.lean ====
import proofs.«145576_g33105607918058_cont_8to1_b_384_29_alg».proof.Proof.Spec
import proofs.«145576_g33105607918058_cont_8to1_b_384_29_alg».proof.Proof.Math.LibBatchNorm
import Mathlib.Algebra.BigOperators.Fin
import Mathlib.Data.EReal.Basic
import Mathlib.Tactic.Ring

namespace Cert.Spec

theorem z_split3 (f : Fin 2376 → EReal) :
    ∑ c : Fin 2376, f c =
      (∑ a : Fin 2048, f ⟨a.val, by omega⟩) +
        ((∑ q : Fin 200, f ⟨2048 + q.val, by omega⟩) + ∑ l : Fin 128, f ⟨2248 + l.val, by omega⟩) := by
  rw [Fin.sum_univ_add (a := 2048) (b := 328) f,
    Fin.sum_univ_add (a := 200) (b := 128) fun b : Fin 328 => f (Fin.natAdd 2048 b)]
  exact congrArg _ (congrArg _ (Finset.sum_congr rfl fun l _ =>
    congrArg f (Fin.ext (by simp only [Fin.coe_natAdd]; omega))))

theorem z_split2 (f : Fin 2176 → EReal) :
    ∑ c : Fin 2176, f c = (∑ a : Fin 2048, f ⟨a.val, by omega⟩) + ∑ l : Fin 128, f ⟨2048 + l.val, by omega⟩ :=
  Fin.sum_univ_add (a := 2048) (b := 128) f

variable (pe : Fin 20000 → Fin 128 → EReal) (dist : Fin 20000 → Fin 36 → EReal) (feat : Fin 20000 → Fin 2048 → EReal)
  (We : Fin 36 → Fin 200 → EReal) (W1 : Fin 1024 → Fin 2376 → EReal)

-- On the middle range (d · We) · w = d · (We · w): an exchange of two finite sums of real products.
theorem z_middle (n : Fin 20000) (r : Fin 1024) (hd : Real2 dist) (hWe : Real2 We) (hW1 : Real2 W1) :
    (∑ q : Fin 200, rOf feat (rOe dist We) pe n ⟨2048 + q.val, by omega⟩ * W1 r ⟨2048 + q.val, by omega⟩) =
      ∑ k, dist n k * kWdt We W1 k r := by
  have h (q : Fin 200) : rOf feat (rOe dist We) pe n ⟨2048 + q.val, by omega⟩ = ∑ k, dist n k * We k q := by
    have h1 : ¬ (2048 + q.val < 2048) := by omega
    have h2 : 2048 + q.val < 2248 := by omega
    simp only [rOf, rOe, h1, h2, dite_false, dite_true, Nat.add_sub_cancel_left, Fin.eta]
  choose d hd using hd n
  choose we hwe using hWe
  choose w hw using fun q : Fin 200 => hW1 r ⟨2048 + q.val, by omega⟩
  simp only [h, kWdt, hd, hwe, hw, ← EReal.coe_mul, ← coe_sum]
  congr 1
  simp only [Finset.sum_mul, Finset.mul_sum]
  rw [Finset.sum_comm]
  exact Finset.sum_congr rfl fun k _ => Finset.sum_congr rfl fun q _ => by ring

-- The 2376 columns split into three ranges; the outer two match term by term, the middle one by the exchange.
theorem z_eq (b1 : Fin 1024 → EReal) (hd : Real2 dist) (hWe : Real2 We) (hW1 : Real2 W1) :
    kZ pe dist feat (kWdt We W1) (kW1fp W1) b1 = rZ feat (rOe dist We) pe W1 b1 := by
  funext n r
  unfold kZ rZ
  congr 1
  rw [z_split3, z_split2, z_middle pe dist feat We W1 n r hd hWe hW1, add_assoc, add_comm (∑ l : Fin 128, _)]
  refine congrArg₂ _ (Finset.sum_congr rfl fun a _ => ?_) (congrArg _ (Finset.sum_congr rfl fun l _ => ?_))
  · simp only [xcat, kW1fp, rOf, a.isLt, dite_true]
  · have h1 : ¬ (2048 + l.val < 2048) := by omega
    have h2 : ¬ (2248 + l.val < 2048) := by omega
    have h3 : ¬ (2248 + l.val < 2248) := by omega
    have e : 2048 + l.val + 200 = 2248 + l.val := by omega
    simp only [xcat, kW1fp, rOf, h1, h2, h3, dite_false, Nat.add_sub_cancel_left, Fin.eta, e]

theorem rZ_real (b1 : Fin 1024 → EReal) (hpe : Real2 pe) (hd : Real2 dist) (hf : Real2 feat) (hWe : Real2 We) (hW1 : Real2 W1) (hb1 : Real1 b1) :
    Real2 (rZ feat (rOe dist We) pe W1 b1) := fun n r =>
  (IsR.sum _ fun col => IsR.mul (by
    unfold rOf
    split_ifs
    exacts [hf n _, IsR.sum _ fun k => IsR.mul (hd n k) (hWe k _), hpe n _]) (hW1 r col)).add (hb1 r)

end Cert.Spec
-- ==== Proof.Math.Out.lean ====
import proofs.«145576_g33105607918058_cont_8to1_b_384_29_alg».proof.Proof.Spec
import proofs.«145576_g33105607918058_cont_8to1_b_384_29_alg».proof.Proof.Math.LibBatchNorm
import Mathlib.Algebra.BigOperators.Group.Finset.Defs
import Mathlib.Data.Fintype.BigOperators

namespace Cert.Spec

-- Row n = 1000t + i is named exactly once by (block t, row i within it).
theorem sum_rows {M : Type} [AddCommMonoid M] (f : Fin 20000 → M) :
    (∑ t : Fin 20, ∑ i : Fin 1000, f (row t i)) = ∑ n : Fin 20000, f n := by
  rw [← Fintype.sum_prod_type' fun t i => f (row t i)]
  exact Fintype.sum_equiv (finProdFinEquiv (m := 20) (n := 1000)) _ _ fun _ => congrArg f (Fin.ext (Nat.add_comm _ _))

theorem out_eq_of_z (z : Fin 20000 → Fin 1024 → EReal) (g2 be2 : Fin 1024 → EReal) (W2 : Fin 37 → Fin 1024 → EReal) (b2 : Fin 37 → EReal)
    (hz : Real2 z) (hg : Real1 g2) (hbe : Real1 be2) :
    kOut z (kS z) (kSS z) g2 be2 W2 b2 = rOut z g2 be2 W2 b2 := by
  funext n j
  unfold kOut rOut
  congr 1
  refine Finset.sum_congr rfl fun r _ => ?_
  congr 1
  obtain ⟨s, t, hs, ht, h⟩ := bn_fold z g2 be2 r (fun n => hz n r) (hg r) (hbe r)
  unfold kH kShift kScale kVar kMu kS kSS
  rw [sum_rows fun n => z n r, sum_rows fun n => z n r * z n r, h n, ← hs, ← ht]
  rfl

end Cert.Spec
-- ==== Proof.Math.All.lean ====
import proofs.«145576_g33105607918058_cont_8to1_b_384_29_alg».proof.Proof.Spec
import proofs.«145576_g33105607918058_cont_8to1_b_384_29_alg».proof.Proof.Math.Pe
import proofs.«145576_g33105607918058_cont_8to1_b_384_29_alg».proof.Proof.Math.Z
import proofs.«145576_g33105607918058_cont_8to1_b_384_29_alg».proof.Proof.Math.Out

namespace Cert.Spec

theorem out_eq (dist : Fin 20000 → Fin 36 → EReal) (boxes : Fin 20000 → Fin 5 → EReal) (feat : Fin 20000 → Fin 2048 → EReal)
    (We : Fin 36 → Fin 200 → EReal) (g4 be4 : Fin 4 → EReal) (posW : Fin 128 → Fin 4 → EReal) (posb : Fin 128 → EReal)
    (W1 : Fin 1024 → Fin 2376 → EReal) (b1 g2 be2 : Fin 1024 → EReal) (W2 : Fin 37 → Fin 1024 → EReal) (b2 : Fin 37 → EReal)
    (hd : Real2 dist) (hbx : Real2 boxes) (hf : Real2 feat) (hWe : Real2 We) (hg4 : Real1 g4) (hbe4 : Real1 be4)
    (hpW : Real2 posW) (hpb : Real1 posb) (hW1 : Real2 W1) (hb1 : Real1 b1) (hg2 : Real1 g2) (hbe2 : Real1 be2) :
    outK dist boxes feat We g4 be4 posW posb W1 b1 g2 be2 W2 b2 = outR dist boxes feat We g4 be4 posW posb W1 b1 g2 be2 W2 b2 := by
  unfold outK outR
  rw [pe_eq boxes g4 be4 posW posb hbx hg4 hbe4 hpW hpb, z_eq _ dist feat We W1 b1 hd hWe hW1]
  exact out_eq_of_z _ g2 be2 W2 b2 (rZ_real _ dist feat We W1 b1 (rPe_real boxes g4 be4 posW posb hbx hg4 hbe4 hpW hpb) hd hf hWe hW1 hb1) hg2 hbe2

end Cert.Spec
-- ==== Proof.lean ====
import proofs.«145576_g33105607918058_cont_8to1_b_384_29_alg».proof.Defs
import proofs.«145576_g33105607918058_cont_8to1_b_384_29_alg».proof.Proof.Gen.Kernel
import proofs.«145576_g33105607918058_cont_8to1_b_384_29_alg».proof.Proof.Gen.KernelIdeal
import proofs.«145576_g33105607918058_cont_8to1_b_384_29_alg».proof.Proof.Gen.ReferenceIdeal
import proofs.«145576_g33105607918058_cont_8to1_b_384_29_alg».proof.Proof.Gen.Pre_finite_inputs
import proofs.«145576_g33105607918058_cont_8to1_b_384_29_alg».proof.Proof.K.Frame
import proofs.«145576_g33105607918058_cont_8to1_b_384_29_alg».proof.Proof.KI.Frame
import proofs.«145576_g33105607918058_cont_8to1_b_384_29_alg».proof.Proof.KI.Value
import proofs.«145576_g33105607918058_cont_8to1_b_384_29_alg».proof.Proof.Ref.Run
import proofs.«145576_g33105607918058_cont_8to1_b_384_29_alg».proof.Proof.Ref.Read
import proofs.«145576_g33105607918058_cont_8to1_b_384_29_alg».proof.Proof.Finite
import proofs.«145576_g33105607918058_cont_8to1_b_384_29_alg».proof.Proof.Math.All
import Idealize.ShloMosaic.Adequacy
import Idealize.ShloMosaic.Init

noncomputable section

namespace Cert.Proof

open Idealize.ShloMosaic Idealize.ShloMosaic.TcCoe Idealize.SL.Sem Idealize.ShloMosaic.ValueIdx Cert.Spec Cert.ReferenceIdeal

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun r h c => by
    refine ⟨?_, ?_, ?_, ?_, ?_, ?_, ?_, ?_, ?_, ?_, ?_, ?_, ?_, ?_, ?_⟩ <;> exact (h c _).trans (RefRun.arg_eq _ _ (by decide)))
    (RefRun.run_main (F := Ideal) m ρ)

/-- Both results are one function of the arguments once every float argument is a real number. -/
theorem algebraic : Cert.algebraic_KernelIdeal_ReferenceIdeal := by
  intro m ρ m' ρ' hpre hagree
  refine ⟨fun c => Cert.KernelIdeal.Hand.W6 m c (Proc.devRef .tc Cert.KernelIdeal.main_v19), fun c => m _,
    Cert.KernelIdeal.Hand.run_value m ρ,
    (θ_run Cert.ReferenceIdeal.defs _ _).mono (fun r h c => ?_) (RefRun.run_main (F := Ideal) m' ρ')⟩
  obtain ⟨g0, g1, g2, g3, g4, g5, g6, g7, g8, g9, g10, g11, g12, g13, g14⟩ := hagree c
  refine ⟨?_, ((h c _).trans (RefRun.arg_eq _ _ (by decide))).trans g3, ?_, ?_, ?_, ?_, ?_, ?_, ?_, ?_, ?_, ?_, ?_, ?_, ?_, ?_, ?_⟩
  on_goal 1 =>
    obtain ⟨r0, r1, r2, r4, r5, r6, r7, r8, r9, r10, r11, r12, -, -⟩ :=
      Cert.Finite.real_of_pre _ _ _ _ _ _ _ _ _ _ _ _ _ _ _ (hpre c)
    rw [h c main_v67]
    funext j
    obtain ⟨n, k, rfl⟩ : ∃ (n : Fin 20000) (k : Fin 37), j = ix2 n k := ⟨j 0, j 1, eq_ix2 j⟩
    have e1 := congrFun (congrFun (RefRead.ref_value (StableHlo.launchContents m' c)) n) k
    rw [show StableHlo.launchContents m' c _ = _ from g0, show StableHlo.launchContents m' c _ = _ from g1,
      show StableHlo.launchContents m' c _ = _ from g2, show StableHlo.launchContents m' c _ = _ from g4,
      show StableHlo.launchContents m' c _ = _ from g5, show StableHlo.launchContents m' c _ = _ from g6,
      show StableHlo.launchContents m' c _ = _ from g7, show StableHlo.launchContents m' c _ = _ from g8,
      show StableHlo.launchContents m' c _ = _ from g9, show StableHlo.launchContents m' c _ = _ from g10,
      show StableHlo.launchContents m' c _ = _ from g11, show StableHlo.launchContents m' c _ = _ from g12,
      show StableHlo.launchContents m' c _ = _ from g13, show StableHlo.launchContents m' c _ = _ from g14] at e1
    exact (e1.trans (congrFun (congrFun (Cert.Spec.out_eq _ _ _ _ _ _ _ _ _ _ _ _ _ _ r0 r1 r2 r4 r5 r6 r7 r8 r9 r10 r11 r12) n) k).symm).trans
      (congrFun (congrFun (Cert.KernelIdeal.Hand.kernel_value m c) n) k).symm
  all_goals exact (h c _).trans (RefRun.arg_eq _ _ (by decide))

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
